-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x5000 : Shape := ⟨2, ![10000, 5000]⟩
abbrev S5000 : Shape := ⟨1, ![5000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x5000 : S_.BroadcastsInDim S10000x5000 (![] : Fin 0 → Fin S10000x5000.rank)
  reducesTo_S10000x5000_S_d0_1 : S10000x5000.ReducesTo [0, 1] S_
  bcast_S_S5000 : S_.BroadcastsInDim S5000 (![] : Fin 0 → Fin S5000.rank)
  reducesTo_S5000_S_d0 : S5000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S10000x5000_S5000_d0 : S10000x5000.ReducesTo [0] S5000

variable [Facts]

def fn_part3 {F : FTy → Type} [FloatOps F] (main_v43 : IVec S_ 1) (main_v49 : IVec S_ 1) : IVec S_ 1 :=
  let main_v50 : IVec S_ 1 := andi main_v43 main_v49
  main_v50

def fn_part2 {F : FTy → Type} [FloatOps F] (main_arg1 : FVec F S10000x5000 .f32) (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_cst_16 : FVec F S_ .f32 := constant S_ .f32 0x00000000#32
  let main_v44 : FVec F S5000 .f32 := (fun x v => Host.reduceAdd x v reducesTo_S10000x5000_S5000_d0 h_S_) main_arg1 main_cst_16
  let main_cst_17 : FVec F S_ .f32 := constant S_ .f32 0x2B8CBCCC#32
  let main_v45 : FVec F S5000 .f32 := broadcastInDim S5000 ![] bcast_S_S5000 main_cst_17
  let main_v46 : FVec F S5000 .f32 := addf main_v44 main_v45
  let main_cst_18 : FVec F S_ .f32 := constant S_ .f32 0x00000000#32
  let main_v47 : FVec F S5000 .f32 := broadcastInDim S5000 ![] bcast_S_S5000 main_cst_18
  let main_v48 : IVec S5000 1 := cmpf .une main_v46 main_v47
  let main_c_19 : IVec S_ 1 := constantI S_ 1 1#1
  let main_v49 : IVec S_ 1 := (fun x v => Host.reduce IntOp.andi x v reducesTo_S5000_S_d0 h_S_) main_v48 main_c_19
  fn_part3 (F := F) main_v43 main_v49

def fn_part1 {F : FTy → Type} [FloatOps F] (main_arg1 : FVec F S10000x5000 .f32) (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg7 main_arg8 main_v33

def fn {F : FTy → Type} [FloatOps F] (main_arg0 : FVec F S10000x128 .f32) (main_arg1 : FVec F S10000x5000 .f32) (main_arg2 : FVec F S5000 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x5000 .f32 := Host.absf main_arg1
  let main_cst_0 : FVec F S_ .f32 := constant S_ .f32 0x7F800000#32
  let main_v5 : FVec F S10000x5000 .f32 := broadcastInDim S10000x5000 ![] bcast_S_S10000x5000 main_cst_0
  let main_v6 : IVec S10000x5000 1 := cmpf .olt main_v4 main_v5
  let main_c_1 : IVec S_ 1 := constantI S_ 1 1#1
  let main_v7 : IVec S_ 1 := (fun x v => Host.reduce IntOp.andi x v reducesTo_S10000x5000_S_d0_1 h_S_) main_v6 main_c_1
  let main_v8 : IVec S_ 1 := andi main_v3 main_v7
  let main_v9 : FVec F S5000 .f32 := Host.absf main_arg2
  let main_cst_2 : FVec F S_ .f32 := constant S_ .f32 0x7F800000#32
  let main_v10 : FVec F S5000 .f32 := broadcastInDim S5000 ![] bcast_S_S5000 main_cst_2
  let main_v11 : IVec S5000 1 := cmpf .olt main_v9 main_v10
  let main_c_3 : IVec S_ 1 := constantI S_ 1 1#1
  let main_v12 : IVec S_ 1 := (fun x v => Host.reduce IntOp.andi x v reducesTo_S5000_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg4 main_arg5 main_arg6 main_arg7 main_arg8 main_v13 main_v16
-- ==== Kernel.lean ====
abbrev S10000x128 : Shape := ⟨2, ![10000, 128]⟩
abbrev S10000x5000 : Shape := ⟨2, ![10000, 5000]⟩
abbrev S5000 : Shape := ⟨1, ![5000]⟩
abbrev S128x64 : Shape := ⟨2, ![128, 64]⟩
abbrev S64 : Shape := ⟨1, ![64]⟩
abbrev S64x64 : Shape := ⟨2, ![64, 64]⟩
abbrev S5000x1 : Shape := ⟨2, ![5000, 1]⟩
abbrev S1x5000 : Shape := ⟨2, ![1, 5000]⟩
abbrev S1x64 : Shape := ⟨2, ![1, 64]⟩
abbrev S10000x1 : Shape := ⟨2, ![10000, 1]⟩
abbrev S5000x64 : Shape := ⟨2, ![5000, 64]⟩
abbrev S400x128 : Shape := ⟨2, ![400, 128]⟩
abbrev S400x5000 : Shape := ⟨2, ![400, 5000]⟩
abbrev S400x1 : Shape := ⟨2, ![400, 1]⟩
abbrev S65x5000 : Shape := ⟨2, ![65, 5000]⟩
abbrev S400x64 : Shape := ⟨2, ![400, 64]⟩
abbrev S64x400 : Shape := ⟨2, ![64, 400]⟩
abbrev S1x400 : Shape := ⟨2, ![1, 400]⟩
abbrev S65x400 : Shape := ⟨2, ![65, 400]⟩
abbrev S64x5000 : Shape := ⟨2, ![64, 5000]⟩
abbrev S10000x64 : Shape := ⟨2, ![10000, 64]⟩

abbrev nBuf : Space → Nat
  | .hbm => 21
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S5000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S10000x5000, .bf16⟩
  | .hbm, ⟨10, _⟩ => ⟨S5000, .bf16⟩
  | .hbm, ⟨11, _⟩ => ⟨S5000x1, .bf16⟩
  | .hbm, ⟨12, _⟩ => ⟨S1x5000, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S10000x1, .f32⟩
  | .hbm, ⟨17, _⟩ => ⟨S1x5000, .f32⟩
  | .hbm, ⟨18, _⟩ => ⟨S5000x64, .bf16⟩
  | .hbm, ⟨19, _⟩ => ⟨S5000x64, .bf16⟩
  | .hbm, ⟨20, _⟩ => ⟨S10000x64, .f32⟩
  | .local _ .vmem, ⟨0, _⟩ => ⟨S400x128, .f32⟩
  | .local _ .vmem, ⟨1, _⟩ => ⟨S400x128, .f32⟩
  | .local _ .vmem, ⟨2, _⟩ => ⟨S400x5000, .bf16⟩
  | .local _ .vmem, ⟨3, _⟩ => ⟨S400x5000, .bf16⟩
  | .local _ .vmem, ⟨4, _⟩ => ⟨S5000x1, .bf16⟩
  | .local _ .vmem, ⟨5, _⟩ => ⟨S1x5000, .f32⟩
  | .local _ .vmem, ⟨6, _⟩ => ⟨S128x64, .f32⟩
  | .local _ .vmem, ⟨7, _⟩ => ⟨S1x64, .f32⟩
  | .local _ .vmem, ⟨8, _⟩ => ⟨S400x1, .f32⟩
  | .local _ .vmem, ⟨9, _⟩ => ⟨S400x1, .f32⟩
  | .local _ .vmem, ⟨10, _⟩ => ⟨S1x5000, .f32⟩
  | .local _ .vmem, ⟨11, _⟩ => ⟨S5000x64, .bf16⟩
  | .local _ .vmem, ⟨12, _⟩ => ⟨S65x5000, .f32⟩
  | .local _ .vmem, ⟨13, _⟩ => ⟨S400x5000, .bf16⟩
  | .local _ .vmem, ⟨14, _⟩ => ⟨S400x5000, .bf16⟩
  | .local _ .vmem, ⟨15, _⟩ => ⟨S5000x64, .bf16⟩
  | .local _ .vmem, ⟨16, _⟩ => ⟨S400x1, .f32⟩
  | .local _ .vmem, ⟨17, _⟩ => ⟨S400x1, .f32⟩
  | .local _ .vmem, ⟨18, _⟩ => ⟨S64x64, .f32⟩
  | .local _ .vmem, ⟨19, _⟩ => ⟨S1x64, .f32⟩
  | .local _ .vmem, ⟨20, _⟩ => ⟨S1x5000, .f32⟩
  | .local _ .vmem, ⟨21, _⟩ => ⟨S5000x64, .bf16⟩
  | .local _ .vmem, ⟨22, _⟩ => ⟨S64x5000, .f32⟩
  | .local _ .vmem, ⟨23, _⟩ => ⟨S400x5000, .bf16⟩
  | .local _ .vmem, ⟨24, _⟩ => ⟨S400x5000, .bf16⟩
  | .local _ .vmem, ⟨25, _⟩ => ⟨S5000x64, .bf16⟩
  | .local _ .vmem, ⟨26, _⟩ => ⟨S400x1, .f32⟩
  | .local _ .vmem, ⟨27, _⟩ => ⟨S400x1, .f32⟩
  | .local _ .vmem, ⟨28, _⟩ => ⟨S64x64, .f32⟩
  | .local _ .vmem, ⟨29, _⟩ => ⟨S1x64, .f32⟩
  | .local _ .vmem, ⟨30, _⟩ => ⟨S400x64, .f32⟩
  | .local _ .vmem, ⟨31, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x5000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5000x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x5000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5000x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_17 : BitVec 32 := 0#32
  let v32 : BitVec 1 := Scalar.cmpi .ne v31 c0_i32_17
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x5000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x5000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5000x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x5000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  shapeCasts_S5000_S5000x1 : S5000.ShapeCasts S5000x1
  shapeCasts_S5000_S1x5000 : S5000.ShapeCasts S1x5000
  shapeCasts_S64_S1x64 : S64.ShapeCasts S1x64
  inb_S400x5000_S400x5000_0_0 : ∀ a, (![0, 0] : Fin 2 → Nat) a + S400x5000.size a ≤ S400x5000.size a
  h_S400x5000 : 0 < S400x5000.numel
  shapeCasts_S400x5000_S400x5000 : S400x5000.ShapeCasts S400x5000
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S400x1_S400x1_0_0 : ∀ a, (![0, 0] : Fin 2 → Nat) a + S400x1.size a ≤ S400x1.size a
  h_S400x1 : 0 < S400x1.numel
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  broadcasts_S400x1_S400x64 : S400x1.Broadcasts S400x64
  transposes_S400x64_p1_0_S64x400 : S400x64.Transposes [1, 0] S64x400
  concatenates_S64x400_S1x400_S65x400_d0 : Shape.Concatenates [S64x400, S1x400] S65x400 0
  inb_S65x5000_S65x5000_0_0 : ∀ a, (![0, 0] : Fin 2 → Nat) a + S65x5000.size a ≤ S65x5000.size a
  h_S65x5000 : 0 < S65x5000.numel
  shapeCasts_S65x5000_S65x5000 : S65x5000.ShapeCasts S65x5000
  inb_S65x5000_S1x5000_64_0 : ∀ a, (![64, 0] : Fin 2 → Nat) a + S1x5000.size a ≤ S65x5000.size a
  h_S1x5000 : 0 < S1x5000.numel
  inb_S1x5000_S1x5000_0_0 : ∀ a, (![0, 0] : Fin 2 → Nat) a + S1x5000.size a ≤ S1x5000.size a
  shapeCasts_S1x5000_S1x5000 : S1x5000.ShapeCasts S1x5000
  inb_S65x5000_S64x5000_0_0 : ∀ a, (![0, 0] : Fin 2 → Nat) a + S64x5000.size a ≤ S65x5000.size a
  h_S64x5000 : 0 < S64x5000.numel
  broadcasts_S1x5000_S64x5000 : S1x5000.Broadcasts S64x5000
  transposes_S64x5000_p1_0_S5000x64 : S64x5000.Transposes [1, 0] S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  shapeCasts_S400x1_S400x1 : S400x1.ShapeCasts S400x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x5000_S64x5000_0_0 : ∀ a, (![0, 0] : Fin 2 → Nat) a + S64x5000.size a ≤ S64x5000.size a
  shapeCasts_S64x5000_S64x5000 : S64x5000.ShapeCasts S64x5000
  inb_S400x64_S400x64_0_0 : ∀ a, (![0, 0] : Fin 2 → Nat) a + S400x64.size a ≤ S400x64.size a
  h_S400x64 : 0 < S400x64.numel
  dot_S400x5000_S5000x1_S400x1_1_0_0_1_n_n_wf : DotDims.WF S400x5000 S5000x1 S400x1 [1] [0] [0] [1] [] []
  dot_S400x128_S128x64_S400x64_1_0_0_1_n_n_wf : DotDims.WF S400x128 S128x64 S400x64 [1] [0] [0] [1] [] []
  dot_S65x400_S400x5000_S65x5000_1_0_0_1_n_n_wf : DotDims.WF S65x400 S400x5000 S65x5000 [1] [0] [0] [1] [] []
  dot_S400x5000_S5000x64_S400x64_1_0_0_1_n_n_wf : DotDims.WF S400x5000 S5000x64 S400x64 [1] [0] [0] [1] [] []
  dot_S400x64_S64x64_S400x64_1_0_0_1_n_n_wf : DotDims.WF S400x64 S64x64 S400x64 [1] [0] [0] [1] [] []
  dot_S64x400_S400x5000_S64x5000_1_0_0_1_n_n_wf : DotDims.WF S64x400 S400x5000 S64x5000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x5000.size a ≤ S10000x5000.size a
  hwx0_1 : ∀ i : grid0.Coords, EltTy.bits .bf16 = 32 ∨ (Rect.block (s := S10000x5000) S400x5000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S5000x1.size a
  hwx0_2 : ∀ i : grid0.Coords, EltTy.bits .bf16 = 32 ∨ (Rect.block (s := S5000x1) S5000x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5000.size a ≤ S1x5000.size a
  hwx0_3 : ∀ i : grid0.Coords, EltTy.bits .f32 = 32 ∨ (Rect.block (s := S1x5000) S1x5000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x1.size a ≤ S10000x1.size a
  hwx0_6 : ∀ i : grid0.Coords, EltTy.bits .f32 = 32 ∨ (Rect.block (s := S10000x1) S400x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x5000.size a ≤ S1x5000.size a
  hwx0_7 : ∀ i : grid0.Coords, EltTy.bits .f32 = 32 ∨ (Rect.block (s := S1x5000) S1x5000.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S5000x64.size a
  hwx0_8 : ∀ i : grid0.Coords, EltTy.bits .bf16 = 32 ∨ (Rect.block (s := S5000x64) S5000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x5000.size a ≤ S10000x5000.size a
  hwx1_0 : ∀ i : grid1.Coords, EltTy.bits .bf16 = 32 ∨ (Rect.block (s := S10000x5000) S400x5000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S5000x64.size a
  hwx1_1 : ∀ i : grid1.Coords, EltTy.bits .bf16 = 32 ∨ (Rect.block (s := S5000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S10000x1.size a
  hwx1_2 : ∀ i : grid1.Coords, EltTy.bits .f32 = 32 ∨ (Rect.block (s := S10000x1) S400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x5000.size a ≤ S1x5000.size a
  hwx1_5 : ∀ i : grid1.Coords, EltTy.bits .f32 = 32 ∨ (Rect.block (s := S1x5000) S1x5000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S5000x64.size a
  hwx1_6 : ∀ i : grid1.Coords, EltTy.bits .bf16 = 32 ∨ (Rect.block (s := S5000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x5000.size a ≤ S10000x5000.size a
  hwx2_0 : ∀ i : grid2.Coords, EltTy.bits .bf16 = 32 ∨ (Rect.block (s := S10000x5000) S400x5000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S5000x64.size a
  hwx2_1 : ∀ i : grid2.Coords, EltTy.bits .bf16 = 32 ∨ (Rect.block (s := S5000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x1.size a ≤ S10000x1.size a
  hwx2_2 : ∀ i : grid2.Coords, EltTy.bits .f32 = 32 ∨ (Rect.block (s := S10000x1) S400x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x64.size a ≤ S10000x64.size a
  hwx2_5 : ∀ i : grid2.Coords, EltTy.bits .f32 = 32 ∨ (Rect.block (s := S10000x64) S400x64.size (cc2_transform_5 i) (hinb2_5 i)).WholeWords (EltTy.packing .f32)

variable [Facts₀]

def dot_S400x5000_S5000x1_S400x1_1_0_0_1_n_n : DotDims S400x5000 S5000x1 S400x1 where
  lhsContracting := [1]
  rhsContracting := [0]
  lhsNonContracting := [0]
  rhsNonContracting := [1]
  lhsBatch := []
  rhsBatch := []
  wf := dot_S400x5000_S5000x1_S400x1_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S65x400_S400x5000_S65x5000_1_0_0_1_n_n : DotDims S65x400 S400x5000 S65x5000 where
  lhsContracting := [1]
  rhsContracting := [0]
  lhsNonContracting := [0]
  rhsNonContracting := [1]
  lhsBatch := []
  rhsBatch := []
  wf := dot_S65x400_S400x5000_S65x5000_1_0_0_1_n_n_wf
def dot_S400x5000_S5000x64_S400x64_1_0_0_1_n_n : DotDims S400x5000 S5000x64 S400x64 where
  lhsContracting := [1]
  rhsContracting := [0]
  lhsNonContracting := [0]
  rhsNonContracting := [1]
  lhsBatch := []
  rhsBatch := []
  wf := dot_S400x5000_S5000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S64x400_S400x5000_S64x5000_1_0_0_1_n_n : DotDims S64x400 S400x5000 S64x5000 where
  lhsContracting := [1]
  rhsContracting := [0]
  lhsNonContracting := [0]
  rhsNonContracting := [1]
  lhsBatch := []
  rhsBatch := []
  wf := dot_S64x400_S400x5000_S64x5000_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x5000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S400x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x5000.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S5000x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v0) S400x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S5000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x5000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S5000x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v0) S400x5000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7_0) S400x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S400x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x5000 : Shape := ⟨2, ![10000, 5000]⟩
abbrev S5000 : Shape := ⟨1, ![5000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩
abbrev S1x5000 : Shape := ⟨2, ![1, 5000]⟩
abbrev S10000 : Shape := ⟨1, ![10000]⟩
abbrev S10000x1 : Shape := ⟨2, ![10000, 1]⟩
abbrev S5000x10000 : Shape := ⟨2, ![5000, 10000]⟩
abbrev S5000x64 : Shape := ⟨2, ![5000, 64]⟩
abbrev S5000x1 : Shape := ⟨2, ![5000, 1]⟩

abbrev nBuf : Space → Nat
  | .hbm => 87
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S5000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S5000, .f32⟩
  | .hbm, ⟨15, _⟩ => ⟨S1x5000, .f32⟩
  | .hbm, ⟨16, _⟩ => ⟨S10000x5000, .f32⟩
  | .hbm, ⟨17, _⟩ => ⟨S10000x5000, .f32⟩
  | .hbm, ⟨18, _⟩ => ⟨S_, .f32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S10000, .f32⟩
  | .hbm, ⟨24, _⟩ => ⟨S_, .f32⟩
  | .hbm, ⟨25, _⟩ => ⟨S5000, .f32⟩
  | .hbm, ⟨26, _⟩ => ⟨S5000, .f32⟩
  | .hbm, ⟨27, _⟩ => ⟨S_, .f32⟩
  | .hbm, ⟨28, _⟩ => ⟨S5000, .f32⟩
  | .hbm, ⟨29, _⟩ => ⟨S5000, .f32⟩
  | .hbm, ⟨30, _⟩ => ⟨S10000x1, .f32⟩
  | .hbm, ⟨31, _⟩ => ⟨S10000x64, .f32⟩
  | .hbm, ⟨32, _⟩ => ⟨S10000x64, .f32⟩
  | .hbm, ⟨33, _⟩ => ⟨S5000x10000, .f32⟩
  | .hbm, ⟨34, _⟩ => ⟨S5000x64, .f32⟩
  | .hbm, ⟨35, _⟩ => ⟨S5000, .f32⟩
  | .hbm, ⟨36, _⟩ => ⟨S5000x1, .f32⟩
  | .hbm, ⟨37, _⟩ => ⟨S5000x64, .f32⟩
  | .hbm, ⟨38, _⟩ => ⟨S5000x64, .f32⟩
  | .hbm, ⟨39, _⟩ => ⟨S10000x64, .f32⟩
  | .hbm, ⟨40, _⟩ => ⟨S10000x1, .f32⟩
  | .hbm, ⟨41, _⟩ => ⟨S10000x64, .f32⟩
  | .hbm, ⟨42, _⟩ => ⟨S10000x64, .f32⟩
  | .hbm, ⟨43, _⟩ => ⟨S_, .f32⟩
  | .hbm, ⟨44, _⟩ => ⟨S10000x64, .f32⟩
  | .hbm, ⟨45, _⟩ => ⟨S10000x64, .f32⟩
  | .hbm, ⟨46, _⟩ => ⟨S10000x64, .f32⟩
  | .hbm, ⟨47, _⟩ => ⟨S1x64, .f32⟩
  | .hbm, ⟨48, _⟩ => ⟨S10000x64, .f32⟩
  | .hbm, ⟨49, _⟩ => ⟨S10000x64, .f32⟩
  | .hbm, ⟨50, _⟩ => ⟨S_, .f32⟩
  | .hbm, ⟨51, _⟩ => ⟨S5000, .f32⟩
  | .hbm, ⟨52, _⟩ => ⟨S1x5000, .f32⟩
  | .hbm, ⟨53, _⟩ => ⟨S10000x5000, .f32⟩
  | .hbm, ⟨54, _⟩ => ⟨S10000x5000, .f32⟩
  | .hbm, ⟨55, _⟩ => ⟨S_, .f32⟩
  | .hbm, ⟨56, _⟩ => ⟨S10000, .f32⟩
  | .hbm, ⟨57, _⟩ => ⟨S_, .f32⟩
  | .hbm, ⟨58, _⟩ => ⟨S10000, .f32⟩
  | .hbm, ⟨59, _⟩ => ⟨S10000, .f32⟩
  | .hbm, ⟨60, _⟩ => ⟨S10000, .f32⟩
  | .hbm, ⟨61, _⟩ => ⟨S_, .f32⟩
  | .hbm, ⟨62, _⟩ => ⟨S5000, .f32⟩
  | .hbm, ⟨63, _⟩ => ⟨S5000, .f32⟩
  | .hbm, ⟨64, _⟩ => ⟨S_, .f32⟩
  | .hbm, ⟨65, _⟩ => ⟨S5000, .f32⟩
  | .hbm, ⟨66, _⟩ => ⟨S5000, .f32⟩
  | .hbm, ⟨67, _⟩ => ⟨S10000x1, .f32⟩
  | .hbm, ⟨68, _⟩ => ⟨S10000x64, .f32⟩
  | .hbm, ⟨69, _⟩ => ⟨S10000x64, .f32⟩
  | .hbm, ⟨70, _⟩ => ⟨S5000x10000, .f32⟩
  | .hbm, ⟨71, _⟩ => ⟨S5000x64, .f32⟩
  | .hbm, ⟨72, _⟩ => ⟨S5000, .f32⟩
  | .hbm, ⟨73, _⟩ => ⟨S5000x1, .f32⟩
  | .hbm, ⟨74, _⟩ => ⟨S5000x64, .f32⟩
  | .hbm, ⟨75, _⟩ => ⟨S5000x64, .f32⟩
  | .hbm, ⟨76, _⟩ => ⟨S10000x64, .f32⟩
  | .hbm, ⟨77, _⟩ => ⟨S10000x1, .f32⟩
  | .hbm, ⟨78, _⟩ => ⟨S10000x64, .f32⟩
  | .hbm, ⟨79, _⟩ => ⟨S10000x64, .f32⟩
  | .hbm, ⟨80, _⟩ => ⟨S_, .f32⟩
  | .hbm, ⟨81, _⟩ => ⟨S10000x64, .f32⟩
  | .hbm, ⟨82, _⟩ => ⟨S10000x64, .f32⟩
  | .hbm, ⟨83, _⟩ => ⟨S10000x64, .f32⟩
  | .hbm, ⟨84, _⟩ => ⟨S1x64, .f32⟩
  | .hbm, ⟨85, _⟩ => ⟨S10000x64, .f32⟩
  | .hbm, ⟨86, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call1_cst : Ref sig .tc := ⟨.hbm, 80, rfl⟩
abbrev main_call1_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x5000_S5000_d0 : S10000x5000.ReducesTo [0] S5000
  h_S_ : 0 < S_.numel
  bcast_S5000_S1x5000_1 : S5000.BroadcastsInDim S1x5000 (![1] : Fin 1 → Fin S1x5000.rank)
  bcast_S1x5000_S10000x5000_0_1 : S1x5000.BroadcastsInDim S10000x5000 (![0, 1] : Fin 2 → Fin S10000x5000.rank)
  reducesTo_S10000x5000_S10000_d1 : S10000x5000.ReducesTo [1] S10000
  bcast_S_S10000 : S_.BroadcastsInDim S10000 (![] : Fin 0 → Fin S10000.rank)
  bcast_S_S5000 : S_.BroadcastsInDim S5000 (![] : Fin 0 → Fin S5000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  transposes_S10000x5000_S5000x10000_1_0 : S10000x5000.Transposes [1, 0] S5000x10000
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S5000x10000_S10000x64_S5000x64_1_0_0_1_n_n_wf : DotDims.WF S5000x10000 S10000x64 S5000x64 [1] [0] [0] [1] [] []
  dot_S10000x5000_S5000x64_S10000x64_1_0_0_1_n_n_wf : DotDims.WF S10000x5000 S5000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S5000x10000_S10000x64_S5000x64_1_0_0_1_n_n : DotDims S5000x10000 S10000x64 S5000x64 where
  lhsContracting := [1]
  rhsContracting := [0]
  lhsNonContracting := [0]
  rhsNonContracting := [1]
  lhsBatch := []
  rhsBatch := []
  wf := dot_S5000x10000_S10000x64_S5000x64_1_0_0_1_n_n_wf
def dot_S10000x5000_S5000x64_S10000x64_1_0_0_1_n_n : DotDims S10000x5000 S5000x64 S10000x64 where
  lhsContracting := [1]
  rhsContracting := [0]
  lhsNonContracting := [0]
  rhsNonContracting := [1]
  lhsBatch := []
  rhsBatch := []
  wf := dot_S10000x5000_S5000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KB.R0Dat.lean ====
import proofs.«106240_g40587440947828_cont_8to1_b_222_22_alg».proof.Proof.Gen.Kernel.Launch
import proofs.«106240_g40587440947828_cont_8to1_b_222_22_alg».proof.Proof.Gen.Kernel.Skeleton
import proofs.«106240_g40587440947828_cont_8to1_b_222_22_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xB0 (c : Dev nD) (t : Fin cfg0.N) : Vec F S400x128 .f32 := iblk0 V c 0 t
abbrev hB0 (c : Dev nD) (t : Fin cfg0.N) : Vec F S400x5000 .bf16 := iblk0 V c 1 t
abbrev wcB0 (c : Dev nD) (t : Fin cfg0.N) : Vec F S5000x1 .bf16 := iblk0 V c 2 t
abbrev wrB0 (c : Dev nD) (t : Fin cfg0.N) : Vec F S1x5000 .f32 := iblk0 V c 3 t
abbrev w1B0 (c : Dev nD) (t : Fin cfg0.N) : Vec F S128x64 .f32 := iblk0 V c 4 t
abbrev b1B0 (c : Dev nD) (t : Fin cfg0.N) : Vec F S1x64 .f32 := iblk0 V c 5 t

theorem cfg0_N : cfg0.N = 25 := N_0

def pt0 (n : ℕ) : Fin cfg0.N := ⟨n % 25, by have := cfg0_N; omega⟩

theorem pt0_val (t : Fin cfg0.N) : pt0 t.val = t := by
  apply Fin.ext; have := cfg0_N; have := t.isLt; simp only [pt0]; omega

def acc0 (c : Dev nD) : ℕ → Vec F S65x5000 .f32
  | 0 => k0_pay6 (hB0 V c (pt0 0)) (wcB0 V c (pt0 0)) (xB0 V c (pt0 0)) (w1B0 V c (pt0 0)) (b1B0 V c (pt0 0)) (k0_pay5 (F := F))
  | n + 1 => k0_pay6 (hB0 V c (pt0 (n + 1))) (wcB0 V c (pt0 (n + 1))) (xB0 V c (pt0 (n + 1))) (w1B0 V c (pt0 (n + 1))) (b1B0 V c (pt0 (n + 1))) (acc0 c n)

abbrev rS0_last : Rect S65x5000 := Rect.unit (s := S65x5000) ![64, 0] S1x5000.size inb_S65x5000_S1x5000_64_0
abbrev rS0_top : Rect S65x5000 := Rect.unit (s := S65x5000) ![0, 0] S64x5000.size inb_S65x5000_S64x5000_0_0

abbrev scM0_0 : Memref sig .tc .vmem S65x5000 .f32 := Memref.whole cc0_scratch0

def back0 (c : Dev nD) : sProp 𝕄 :=
  iprop((∃ d, owns (c : Thread nD τ) scM0_0 fullShare d) -∗ Pipeline.ΦA spec0 c)

def PhiS0 (c : Dev nD) : ℕ → sProp 𝕄
  | 0 => Pipeline.ΦA spec0 c
  | n + 1 => iprop(owns (c : Thread nD τ) scM0_0 fullShare (acc0 V c n) ∗ back0 (F := F) c)

theorem PhiS0_zero (c : Dev nD) : PhiS0 V c 0 = Pipeline.ΦA spec0 c := rfl
theorem PhiS0_succ (c : Dev nD) (n : ℕ) :
    PhiS0 V c (n + 1) = iprop(owns (c : Thread nD τ) scM0_0 fullShare (acc0 V c n) ∗ back0 (F := F) c) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay4 (hB0 V c t) (wcB0 V c t)
    | ⟨7, _⟩ => k0_pay1 (View.ld (acc0 V c t.val) rS0_last) (wrB0 V c t)
    | ⟨8, _⟩ => k0_pay2 (View.ld (acc0 V c t.val) rS0_last) (wrB0 V c t) (View.ld (acc0 V c t.val) rS0_top)
  Φ t := PhiS0 V c t.val
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = k0_pay4 (hB0 V c t) (wcB0 V c t) := by dsimp only [dat0]
theorem after0_7 (c : Dev nD) (t : Fin cfg0.N) :
    (dat0 V c).after 7 t = k0_pay1 (View.ld (acc0 V c t.val) rS0_last) (wrB0 V c t) := by dsimp only [dat0]
theorem after0_8 (c : Dev nD) (t : Fin cfg0.N) :
    (dat0 V c).after 8 t = k0_pay2 (View.ld (acc0 V c t.val) rS0_last) (wrB0 V c t) (View.ld (acc0 V c t.val) rS0_top) := by
  dsimp only [dat0]

theorem Phi0_eq (c : Dev nD) (t : Fin (cfg0.N + 1)) : (dat0 V c).Φ t = PhiS0 V c t.val := by dsimp only [dat0]

theorem hin0 (c : Dev nD) : Pipeline.ΦA spec0 c ⊢ (dat0 V c).Φ 0 := by
  rw [Phi0_eq]; exact Idealize.SL.BI.Entails.refl _

theorem hout0 (c : Dev nD) : (dat0 V c).Φ (Fin.last cfg0.N) ⊢ Pipeline.ΦA spec0 c := by
  rw [Phi0_eq, show (Fin.last cfg0.N).val = 24 + 1 from by rw [Fin.val_last]; exact cfg0_N, PhiS0_succ]
  unfold back0
  iintro ⟨HS, Hb⟩
  iapply Hb
  iexists _; iexact HS

end Cert.Kernel.Hand

end
-- ==== Proof.KB.R1Dat.lean ====
import proofs.«106240_g40587440947828_cont_8to1_b_222_22_alg».proof.Proof.Gen.Kernel.Launch
import proofs.«106240_g40587440947828_cont_8to1_b_222_22_alg».proof.Proof.Gen.Kernel.Skeleton
import proofs.«106240_g40587440947828_cont_8to1_b_222_22_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hB1 (c : Dev nD) (t : Fin cfg1.N) : Vec F S400x5000 .bf16 := iblk1 V c 0 t
abbrev eB1 (c : Dev nD) (t : Fin cfg1.N) : Vec F S5000x64 .bf16 := iblk1 V c 1 t
abbrev dB1 (c : Dev nD) (t : Fin cfg1.N) : Vec F S400x1 .f32 := iblk1 V c 2 t
abbrev w2B1 (c : Dev nD) (t : Fin cfg1.N) : Vec F S64x64 .f32 := iblk1 V c 3 t
abbrev b2B1 (c : Dev nD) (t : Fin cfg1.N) : Vec F S1x64 .f32 := iblk1 V c 4 t
abbrev sB1 (c : Dev nD) (t : Fin cfg1.N) : Vec F S1x5000 .f32 := iblk1 V c 5 t

theorem cfg1_N : cfg1.N = 25 := N_1

def pt1 (n : ℕ) : Fin cfg1.N := ⟨n % 25, by have := cfg1_N; omega⟩

theorem pt1_val (t : Fin cfg1.N) : pt1 t.val = t := by
  apply Fin.ext; have := cfg1_N; have := t.isLt; simp only [pt1]; omega

def acc1 (c : Dev nD) : ℕ → Vec F S64x5000 .f32
  | 0 => k1_pay2 (hB1 V c (pt1 0)) (dB1 V c (pt1 0)) (eB1 V c (pt1 0)) (w2B1 V c (pt1 0)) (b2B1 V c (pt1 0)) (k1_pay1 (F := F))
  | n + 1 => k1_pay2 (hB1 V c (pt1 (n + 1))) (dB1 V c (pt1 (n + 1))) (eB1 V c (pt1 (n + 1))) (w2B1 V c (pt1 (n + 1))) (b2B1 V c (pt1 (n + 1))) (acc1 c n)

abbrev scM1_0 : Memref sig .tc .vmem S64x5000 .f32 := Memref.whole cc1_scratch0

def back1 (c : Dev nD) : sProp 𝕄 :=
  iprop((∃ d, owns (c : Thread nD τ) scM1_0 fullShare d) -∗ Pipeline.ΦA spec1 c)

def PhiS1 (c : Dev nD) : ℕ → sProp 𝕄
  | 0 => Pipeline.ΦA spec1 c
  | n + 1 => iprop(owns (c : Thread nD τ) scM1_0 fullShare (acc1 V c n) ∗ back1 (F := F) c)

theorem PhiS1_zero (c : Dev nD) : PhiS1 V c 0 = Pipeline.ΦA spec1 c := rfl
theorem PhiS1_succ (c : Dev nD) (n : ℕ) :
    PhiS1 V c (n + 1) = iprop(owns (c : Thread nD τ) scM1_0 fullShare (acc1 V c n) ∗ back1 (F := F) c) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (acc1 V c t.val) (sB1 V c t)
  Φ t := PhiS1 V c t.val
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = k1_pay3 (acc1 V c t.val) (sB1 V c t) := by dsimp only [dat1]

theorem Phi1_eq (c : Dev nD) (t : Fin (cfg1.N + 1)) : (dat1 V c).Φ t = PhiS1 V c t.val := by dsimp only [dat1]

theorem hin1 (c : Dev nD) : Pipeline.ΦA spec1 c ⊢ (dat1 V c).Φ 0 := by
  rw [Phi1_eq]; exact Idealize.SL.BI.Entails.refl _

theorem hout1 (c : Dev nD) : (dat1 V c).Φ (Fin.last cfg1.N) ⊢ Pipeline.ΦA spec1 c := by
  rw [Phi1_eq, show (Fin.last cfg1.N).val = 24 + 1 from by rw [Fin.val_last]; exact cfg1_N, PhiS1_succ]
  unfold back1
  iintro ⟨HS, Hb⟩
  iapply Hb
  iexists _; iexact HS

end Cert.Kernel.Hand

end
-- ==== Proof.KB.R2Dat.lean ====
import proofs.«106240_g40587440947828_cont_8to1_b_222_22_alg».proof.Proof.Gen.Kernel.Launch
import proofs.«106240_g40587440947828_cont_8to1_b_222_22_alg».proof.Proof.Gen.Kernel.Skeleton
import proofs.«106240_g40587440947828_cont_8to1_b_222_22_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hB2 (c : Dev nD) (t : Fin cfg2.N) : Vec F S400x5000 .bf16 := iblk2 V c 0 t
abbrev eB2 (c : Dev nD) (t : Fin cfg2.N) : Vec F S5000x64 .bf16 := iblk2 V c 1 t
abbrev dB2 (c : Dev nD) (t : Fin cfg2.N) : Vec F S400x1 .f32 := iblk2 V c 2 t
abbrev whB2 (c : Dev nD) (t : Fin cfg2.N) : Vec F S64x64 .f32 := iblk2 V c 3 t
abbrev bhB2 (c : Dev nD) (t : Fin cfg2.N) : Vec F S1x64 .f32 := iblk2 V c 4 t

theorem cfg2_N : cfg2.N = 25 := N_2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (hB2 V c t) (eB2 V c t) (dB2 V c t) (whB2 V c t) (bhB2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = k2_pay1 (hB2 V c t) (eB2 V c t) (dB2 V c t) (whB2 V c t) (bhB2 V c t) := by dsimp only [dat2]

theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.Kernel.Hand

end
-- ==== Proof.LibRegionSeg.lean ====
import Idealize.ShloMosaic.Lib.Pipeline.RegionsLoop
import Idealize.ShloMosaic.Lib.Pipeline.FrameSuffix
import Idealize.ShloMosaic.Lib.Tactic

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Val : EltTy → Type} {Λ₀ : Labels}

section Exit

variable {cfg : Cfg sig Λ₀} (dat : (c : Dev nD) → Dat τ Val Unit ℕ (UR sig nD τ) ℕ cfg c) (W : Dev nD → Valuation τ sig Val) (c : Dev nD)

/-- `W c` updated at the arrays of `cfg` by the last contents of `dat c`. -/
def exitW : Valuation τ sig Val := Pipeline.withArrays cfg.spec c (W c) fun w => (dat c).arrAt w cfg.N

theorem exitW_arr (hinj : Function.Injective (Pipeline.arrRef cfg.spec)) (w : Fin cfg.W) :
    exitW dat W c (Proc.devRef .tc (Pipeline.arrRef cfg.spec w)) = (dat c).arrAt w cfg.N :=
  Pipeline.withArrays_arr _ hinj c _ _ w

theorem exitW_of_ne (b : Ref sig .tc) (hb : ∀ w, Pipeline.arrRef cfg.spec w ≠ b) :
    exitW dat W c (Proc.devRef .tc b) = W c (Proc.devRef .tc b) :=
  Pipeline.withArrays_of_ne _ c _ _ b hb

/-- `b` is the array of no output window of `cfg`. -/
abbrev NotOut (cfg : Cfg sig Λ₀) (b : Ref sig .tc) : Prop := ∀ w, (cfg.win w).isOut = true → Pipeline.arrRef cfg.spec w ≠ b

/-- At an array of no output window the last contents are the first (`arrAt_in`), which `hA` reads off `W`. -/
theorem exitW_keep (hinj : Function.Injective (Pipeline.arrRef cfg.spec))
    (hA : ∀ w, (dat c).A w = W c (Proc.devRef .tc (Pipeline.arrRef cfg.spec w))) (b : Ref sig .tc) (hb : NotOut cfg b) :
    exitW dat W c (Proc.devRef .tc b) = W c (Proc.devRef .tc b) := by
  by_cases h : ∃ w, Pipeline.arrRef cfg.spec w = b
  · obtain ⟨w, rfl⟩ := h
    rw [exitW_arr dat W c hinj w, (dat c).arrAt_in w (Bool.eq_false_iff.mpr fun hw => hb w hw rfl), hA]
  · exact exitW_of_ne dat W c b fun w e => h ⟨w, e⟩

end Exit

abbrev tstate (c : Dev nD) (V : Valuation τ sig Val) : sProp (MT nD τ sig Unit Val ℕ (UR sig nD τ) ℕ) :=
  iprop(StableHlo.held (c : Thread nD τ) (Pipeline.ucRefs τ sig) V ∗ (∃ r, prngReg c r) ∗ ∃ W, owes (c : Thread nD τ) (0 : CellTallies nD τ sig Unit) W)

variable {P : Type} [Fintype P] (cfgs : P → Cfg sig Λ₀) (pdats : (p : P) → (c : Dev nD) → Dat τ Val Unit ℕ (UR sig nD τ) ℕ (cfgs p) c)
  (defs₀ : Defs nD τ sig Val Λ₀)

/-- One record for every region: they differ only in the index, the entry contents and the two invariant entailments. -/
def regOf {p : P} (Ui : Dev nD → Valuation τ sig Val) (lf : Pipeline.LaunchFacts (nD := nD) (τ := τ) cfgs p)
    (hb : ∀ c, BodyObligation (pdats p c) defs₀ Variants.none () Set.univ)
    (hA : ∀ c w, (pdats p c).A w = Ui c (Proc.devRef .tc (Pipeline.arrRef (cfgs p).spec w)))
    (hΦi : ∀ c, Pipeline.ΦA (cfgs p).spec c ⊢ (pdats p c).Φ 0)
    (hΦo : ∀ c, (pdats p c).Φ (Fin.last (cfgs p).N) ⊢ Pipeline.ΦA (cfgs p).spec c)
    (hq : ∀ c w, (pdats p c).q w = fullShare := by exact fun _ _ => rfl)
    (h0 : ∀ c t, (pdats p c).owed t = 0 := by exact fun _ _ => rfl)
    (hr : ∀ c x, x ∈ (pdats p c).recorded 0 := by exact fun _ _ => trivial) :
    Pipeline.RegionSeg (fun q => (cfgs q).toPCfg (Val := Val)) (fun q => (cfgs q).toPCfg_adm) pdats () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ _ _ p h0
  pre c := tstate c (Ui c)
  post c := tstate c (exitW (pdats p) Ui c)
  X c := iprop(∃ r, prngReg c r)
  Y c := iprop(∃ r, prngReg c r)
  Z c := Pipeline.unscopedRest (Ix := Unit) (Name := ℕ) (U := UR sig nD τ) (Lvl := ℕ) (cfgs p).spec c fun b => Ui c b
  hentry c := by
    rw [Pipeline.ownSems0_none]; unfold Pipeline.Dat.owesAt Pipeline.owesWithin Pipeline.prefHeld
    rw [h0, show (Finset.univ : Finset (Fin 0)) = ∅ from rfl, BI.bigSep_empty]
    have hsplit := Pipeline.arrays_of_unscopedBufs (fun q => (cfgs q).toPCfg (Val := Val)) (fun q => (cfgs q).toPCfg_adm) pdats
      lf.win lf.arr_whole c ((pdats p c).share_full (hq c)) (fun b => Ui c b) (hA c)
    rw [Pipeline.unscopedBufs_held] at hsplit
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun x _ => Or.inl (hr c x)
      iexact HO
    isplitl [Hp] <;> iassumption
  hin c := by
    refine .trans ?_ (hΦi c)
    unfold Pipeline.ΦA
    iintro ⟨Hp, -, Hr⟩; isplitl [Hr] <;> iassumption
  hout c := by
    refine (hΦo c).trans ?_
    rw [Pipeline.ownSems0_none]; unfold Pipeline.ΦA
    iintro ⟨Hr, Hp⟩; isplitl [Hp]; · iexact Hp
    isplitr; · iempintro
    iexact Hr
  hexit c := by
    have hjoin := Pipeline.unscopedBufs_of_arrays (fun q => (cfgs q).toPCfg (Val := Val)) (fun q => (cfgs q).toPCfg_adm) (Ix := Unit) (Name := ℕ) (U := UR sig nD τ) (Lvl := ℕ)
      lf.win lf.arr_whole c pdats ((pdats p c).share_full (hq c)) (fun b => Ui c b) (fun b => exitW (pdats p) Ui c b) _
      (fun w => (exitW_arr (pdats p) Ui c lf.win.arr_inj w).symm)
      (fun b hb => exitW_of_ne (pdats p) Ui c b fun w e => hb (Finset.mem_image.mpr ⟨w, Finset.mem_univ _, e⟩))
    rw [Pipeline.unscopedBufs_held] at hjoin
    unfold Pipeline.Dat.owesAt Pipeline.owesWithin; rw [h0]
    iintro ⟨Ha, ⟨%W, -, HO⟩, HY, Hrest⟩
    imodintro
    isplitl [Ha Hrest]
    · iapply hjoin; isplitl [Ha] <;> iassumption
    isplitl [HY]; · iexact HY
    iexists W; iexact HO

/-- A host stretch from the thread state at `W` to the one at `StableHlo.after ops (W c)`. -/
abbrev hostOf (ops : List (HloOp τ sig Val)) (hsub : ops.Forall fun op => op.bufs ⊆ StableHlo.tcRefs τ sig)
    (hfresh : ops.Forall fun op => op.fresh = ∅) (W : Dev nD → Valuation τ sig Val) :
    Pipeline.HostSeg (Ix := Unit) (Name := ℕ) (U := UR sig nD τ) (Lvl := ℕ) (fun q => (cfgs q).toPCfg (Val := Val)) defs₀ Variants.none (fun _ => ∅) (fun _ _ => 0) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W
    fun c => iprop((∃ r, prngReg c r) ∗ ∃ W, owes (c : Thread nD τ) (0 : CellTallies nD τ sig Unit) W)

set_option backward.isDefEq.respectTransparency.types false in
/-- Segments that chain from the launch memory to `Wn` run to final states that hold `Wn`. -/
theorem run_segs [DecidableEq P] [∀ e, Nonempty (Val e)] (phinj : Function.Injective (Pipeline.cellOf (nD := nD) (τ := τ) cfgs))
    (m : (ℓ : Loc nD τ sig) → Buf Val ℓ) (ρ : Dev nD → PrngReg)
    (main : Dev nD → Prog (TpuEff nD τ sig Val (Pipeline.Sig Λ₀ P fun p => ((cfgs p).toPCfg (Val := Val)).Adm) .tc) PUnit)
    (segs : List (Pipeline.Seg (fun q => (cfgs q).toPCfg (Val := Val)) (fun q => (cfgs q).toPCfg_adm) pdats () defs₀ Variants.none (fun _ => ∅) (fun _ _ => 0)))
    (hmain : ∀ c, main c = Pipeline.Seg.run segs) (hnd : (Pipeline.Seg.pipes segs).Nodup) (Wn : Dev nD → Valuation τ sig Val)
    (hch : Pipeline.Seg.Chains (fun c => tstate c fun b => (s₀ m ρ).mem ((c : Dev nD), b)) segs fun c =>
      iprop((StableHlo.held (c : Thread nD τ) (Pipeline.ucRefs τ sig) (Wn c) ∗ ∃ r, prngReg c r) ∗ ∃ W, owes (c : Thread nD τ) (0 : CellTallies nD τ sig Unit) W)) :
    θ_run (Pipeline.defs (fun q => (cfgs q).toPCfg (Val := Val)) defs₀) (onTc (τ := τ) main) ⟨m, fun _ => 0, ρ⟩ (fun r => ∀ c : Dev nD,
      ∀ b ∈ Pipeline.ucRefs τ sig, r.2.mem ((c : Thread nD τ).1, b) = Wn c b) :=
  Pipeline.θ_run_regions_kit (fun q => (cfgs q).toPCfg (Val := Val)) (fun q => (cfgs q).toPCfg_adm) pdats () phinj emb₁ defs₀ Variants.none (fun _ => ∅) (fun _ _ => 0) m ρ main segs
    (fun c Q => by rw [hmain c])
    hnd
    (O₀ := 0) (hL := fun _ _ => rfl) (G := fun _ => iprop(emp))
    (u₀ := initOf (Pipeline.cells cfgs phinj) (Pipeline.launchToks cfgs phinj))
    (hu₀ := by
      iintro Hu; imodintro
      isplitl [Hu]
      · iapply (show (ownU (initOf (Pipeline.cells cfgs phinj) (Pipeline.launchToks cfgs phinj)) : sProp (MT nD τ sig Unit Val ℕ (UR sig nD τ) ℕ))
            ⊢ BI.own (emb₁ (initOf (Pipeline.cells cfgs phinj) (Pipeline.launchToks cfgs phinj))) from .rfl)
        iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (T₀ := fun c => tstate c fun b => (s₀ m ρ).mem ((c : Dev nD), b))
    (Tₙ := fun c => iprop(StableHlo.held (c : Thread nD τ) (Pipeline.ucRefs τ sig) (Wn c) ∗ ∃ r, prngReg c r))
    (hch := hch)
    (hinit := by
      refine Pipeline.initEach _ _ fun c => ?_
      rw [show unscopedBufs c (fun b => m ((c : Thread nD τ).loc b)) = StableHlo.held (c : Thread nD τ) (Pipeline.ucRefs τ sig) (fun b => (s₀ m ρ).mem ((c : Dev nD), b))
        from Pipeline.unscopedBufs_held c fun b => (s₀ m ρ).mem ((c : Dev nD), b)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun _ h => h)

end Cert

end
-- ==== Proof.KB.Fold.lean ====
import proofs.«106240_g40587440947828_cont_8to1_b_222_22_alg».proof.Proof.KB.R0Dat
import proofs.«106240_g40587440947828_cont_8to1_b_222_22_alg».proof.Proof.KB.R1Dat
import proofs.«106240_g40587440947828_cont_8to1_b_222_22_alg».proof.Proof.KB.R2Dat
import proofs.«106240_g40587440947828_cont_8to1_b_222_22_alg».proof.Proof.Gen.Kernel.Regions
import proofs.«106240_g40587440947828_cont_8to1_b_222_22_alg».proof.Proof.LibRegionSeg

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := exitW (dat0 (V1 m ρ)) (W1 m ρ)
abbrev V2 : (c : Dev nD) → (b : Ref sig .tc) → Buf (Elt F) ((c : Thread nD τ).loc b) := fun c b => W2 m ρ c b
def W3 : Dev nD → Valuation τ sig (Elt F) := exitW (dat1 (V2 m ρ)) (W2 m ρ)
abbrev V3 : (c : Dev nD) → (b : Ref sig .tc) → Buf (Elt F) ((c : Thread nD τ).loc b) := fun c b => W3 m ρ c b
def W4 : Dev nD → Valuation τ sig (Elt F) := exitW (dat2 (V3 m ρ)) (W3 m ρ)

theorem hF0 (c : Dev nD) (w : Fin cfg0.W) : (dat0 (V1 m ρ) c).arrAt w cfg0.N = V2 m ρ c (Pipeline.arrRef spec0 w) :=
  (exitW_arr _ _ c launch0.win.arr_inj w).symm
theorem hrest0 (c : Dev nD) (b : Ref sig .tc) (hb : ∀ w, Pipeline.arrRef spec0 w ≠ b) : V2 m ρ c b = V1 m ρ c b :=
  exitW_of_ne _ _ c b hb
theorem hF1 (c : Dev nD) (w : Fin cfg1.W) : (dat1 (V2 m ρ) c).arrAt w cfg1.N = V3 m ρ c (Pipeline.arrRef spec1 w) :=
  (exitW_arr _ _ c launch1.win.arr_inj w).symm
theorem hrest1 (c : Dev nD) (b : Ref sig .tc) (hb : ∀ w, Pipeline.arrRef spec1 w ≠ b) : V3 m ρ c b = V2 m ρ c b :=
  exitW_of_ne _ _ c b hb
theorem W4_result (c : Dev nD) : W4 m ρ c (Proc.devRef .tc main_v9) = (dat2 (V3 m ρ) c).arrAt 5 cfg2.N :=
  exitW_arr _ _ c launch2.win.arr_inj 5

-- a buffer no host operation writes and no pass writes back ends as launched
theorem W4_keep (c : Dev nD) (b : Ref sig .tc)
    (h : b ∉ hostOps0_W ∧ NotOut cfg0 b ∧ NotOut cfg1 b ∧ NotOut cfg2 b) :
    W4 m ρ c (Proc.devRef .tc b) = m ((c : Thread nD τ).loc b) :=
  (exitW_keep _ _ c launch2.win.arr_inj (A_eq2 _ c) b h.2.2.2).trans <|
    (exitW_keep _ _ c launch1.win.arr_inj (A_eq1 _ c) b h.2.2.1).trans <|
      (exitW_keep _ _ c launch0.win.arr_inj (A_eq0 _ c) b h.2.1).trans <|
        StableHlo.after_of_writes_sub hostOps0 _ hostOps0_writes h.1

end Cert.Kernel.Hand

end
-- ==== Proof.LibBody.lean ====
import Idealize.ShloMosaic.Lib.Memref
import Idealize.ShloMosaic.Lib.Ring
import Idealize.ShloMosaic.Lib.Pipeline.FrameBody
import Idealize.ShloMosaic.Lib.Pipeline.Value

namespace Idealize.ShloMosaic

open Idealize.SL
open Idealize.SL.BI (sProp)
open scoped Idealize.SL.BI
open Idealize.SL.BI.BIBase Idealize.SL.BI.Laws Idealize.SL.ProofMode
open Idealize.SL.RA

section

variable {Val : EltTy → Type} [∀ e, Nonempty (Val e)] {sig : RefSig} {κ : Kind} {sp : Space} {e : EltTy} {sz : Fin 2 → ℕ}

theorem offs2_zero : (![0, 0] : Fin 2 → Nat) = fun _ => 0 := funext fun a => by fin_cases a <;> rfl

-- the rectangle of a whole two-axis shape at zero offsets meets every index
theorem View.ld_whole2 (X : (⟨2, sz⟩ : Shape).Idx → Val e) (inb : ∀ a, (![0, 0] : Fin 2 → ℕ) a + sz a ≤ sz a) :
    View.ld X (Rect.unit (s := ⟨2, sz⟩) ![0, 0] sz inb) = X := View.ld_unit_zero offs2_zero inb X

-- the last store covers every index, so nothing older shows through
theorem View.read_stored_whole2 (v : View sig κ sp ⟨2, sz⟩ e) (f : v.ty.Contents Val) (inb : ∀ a, (![0, 0] : Fin 2 → ℕ) a + sz a ≤ sz a)
    (w : (⟨2, sz⟩ : Shape).Idx → Val e) (L : List (View.Piece Val ⟨2, sz⟩ e)) :
    v.read Val (v.writes Val f ((⟨Rect.unit (s := ⟨2, sz⟩) ![0, 0] sz inb, w⟩ : View.Piece Val ⟨2, sz⟩ e) :: L)) = w := by
  rw [View.read_writes_eq_canon _ _ _ (fun y => ⟨_, List.mem_cons_self, View.mem_set_unit_zero offs2_zero inb y⟩),
    View.canon_cons_unit_zero offs2_zero]

-- a load, through any rectangle, of what one whole-buffer store left reads the stored value there
theorem View.readCov_stored_whole2 (v : View sig κ sp ⟨2, sz⟩ e) (inb : ∀ a, (![0, 0] : Fin 2 → ℕ) a + sz a ≤ sz a)
    (w : (⟨2, sz⟩ : Shape).Idx → Val e) (r : Rect ⟨2, sz⟩) :
    v.readCov [(⟨Rect.unit (s := ⟨2, sz⟩) ![0, 0] sz inb, w⟩ : View.Piece Val ⟨2, sz⟩ e)] r.toLoadRect = View.ld w r := by
  rw [View.readCov_eq_canon_ld _ _ _ (fun y => ⟨_, List.mem_singleton_self _, View.mem_set_unit_zero offs2_zero inb y⟩),
    View.canon_unit_zero offs2_zero]

end

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {c : Thread nD τ} {cs : Space} {s : Shape} {e : EltTy} {q : PosShare TreeShare}

-- a whole buffer at the raw contents that read X is owned at X (`owns`, opened)
theorem owns_unread {M : Memref sig c.2.kind cs s e} (h : M.IsWhole) (X : s.Idx → Val e) :
    (iprop(M.view.loc c ↦[M.view.set]{q} h.unread X) : sProp 𝕄)
      ⊢ iprop(∃ f, ⌜M.view.read Val f = X⌝ ∗ M.view.loc c ↦[M.view.set]{q} f) := by
  iintro H; iexists _; isplitr
  · ipureintro; exact h.read_unread X
  · iexact H

-- a buffer whose raw contents read X is owned at X
theorem owns_of_read {M : Memref sig c.2.kind cs s e} {f : M.view.ty.Contents Val} {X : s.Idx → Val e} (h : M.view.read Val f = X) :
    (iprop(M.view.loc c ↦[M.view.set]{q} f) : sProp 𝕄)
      ⊢ iprop(∃ f, ⌜M.view.read Val f = X⌝ ∗ M.view.loc c ↦[M.view.set]{q} f) := by
  iintro H; iexists _; isplitr
  · ipureintro; exact h
  · iexact H

end Idealize.ShloMosaic
-- ==== Proof.KB.R0Base.lean ====
import proofs.«106240_g40587440947828_cont_8to1_b_222_22_alg».proof.Proof.KB.R0Dat
import proofs.«106240_g40587440947828_cont_8to1_b_222_22_alg».proof.Proof.LibBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- cond0_0 says the point is the first of the 25, cond0_1 that it is the last
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idleAt0 : ∀ t : Fin cfg0.N, ¬cond0_1 (grid0.coords t) → ∀ w : Fin cfg0.W, 7 ≤ w.val →
    cfg0.idle w (grid0.coords t) = true ∧ (cfg0.win w).flush t = false := by decide +kernel
theorem liveAt0 : ∀ t : Fin cfg0.N, cond0_1 (grid0.coords t) → ∀ w : Fin cfg0.W, cfg0.idle w (grid0.coords t) = false := by decide +kernel

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

theorem PhiA0_open (c : Dev nD) :
    (Pipeline.ΦA spec0 c : sProp 𝕄) ⊢ iprop((∃ d, owns (c : Thread nD τ) scM0_0 fullShare d) ∗ back0 (F := F) c) := by
  unfold back0 Pipeline.ΦA; rw [scopedRest0_eq]; simp only [scM0_0, owns_whole]
  iintro ⟨⟨HS, HR⟩, Hg⟩
  isplitl [HS]; · iexact HS
  iintro HS
  iframe

end Cert.Kernel.Hand

end
-- ==== Proof.KB.R0RunA.lean ====
import Idealize.ShloMosaic.Lib.Pipeline.Value
import proofs.«106240_g40587440947828_cont_8to1_b_222_22_alg».proof.Proof.KB.R0Base

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the body's run at the first block
theorem kernelRun0_A (c : Dev nD) (i : grid0.Coords) (arg1 : Memref sig .tc .vmem S400x128 .f32) (harg1 : arg1.IsWhole) (arg2 : Memref sig .tc .vmem S400x5000 .bf16) (harg2 : arg2.IsWhole)
    (arg3 : Memref sig .tc .vmem S5000x1 .bf16) (harg3 : arg3.IsWhole) (arg4 : Memref sig .tc .vmem S1x5000 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x1 .f32) (harg7 : arg7.IsWhole) (arg8 : Memref sig .tc .vmem S1x5000 .f32) (harg8 : arg8.IsWhole)
    (arg9 : Memref sig .tc .vmem S5000x64 .bf16) (harg9 : arg9.IsWhole) (arg10 : Memref sig .tc .vmem S65x5000 .f32) (harg10 : arg10.IsWhole) (hc0 : cond0_0 i) (hc1 : ¬cond0_1 i)
    (x0 : Vec F S400x128 .f32) (x1 : Vec F S400x5000 .bf16) (x2 : Vec F S5000x1 .bf16) (x3 : Vec F S1x5000 .f32) (x4 : Vec F S128x64 .f32) (x5 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay4 x1 x2)
            ∗ owns (c : Thread nD τ) arg10 fullShare (k0_pay6 x1 x2 x0 x4 x5 (k0_pay5 (F := F)))) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9 arg10 harg10) K := by
  rw [cc0__pass_a_eq_skeleton]; unfold cc0__pass_a_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  subst hf0 hf1 hf2 hf3 hf4 hf5
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    simp only [View.read_stored_whole2, View.readAt_eq_ld, View.ld_whole2, View.readCov_stored_whole2]
  iapply owns_of_read ?_
  swap; · iexact HS
  sl_unfold_words
  simp only [View.read_stored_whole2, View.readAt_eq_ld, View.ld_whole2, View.readCov_stored_whole2]

end Cert.Kernel.Hand

end
-- ==== Proof.KB.R0RunB.lean ====
import Idealize.ShloMosaic.Lib.Pipeline.Value
import proofs.«106240_g40587440947828_cont_8to1_b_222_22_alg».proof.Proof.KB.R0Base

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the body's run at a block between
theorem kernelRun0_B (c : Dev nD) (i : grid0.Coords) (arg1 : Memref sig .tc .vmem S400x128 .f32) (harg1 : arg1.IsWhole) (arg2 : Memref sig .tc .vmem S400x5000 .bf16) (harg2 : arg2.IsWhole)
    (arg3 : Memref sig .tc .vmem S5000x1 .bf16) (harg3 : arg3.IsWhole) (arg4 : Memref sig .tc .vmem S1x5000 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x1 .f32) (harg7 : arg7.IsWhole) (arg8 : Memref sig .tc .vmem S1x5000 .f32) (harg8 : arg8.IsWhole)
    (arg9 : Memref sig .tc .vmem S5000x64 .bf16) (harg9 : arg9.IsWhole) (arg10 : Memref sig .tc .vmem S65x5000 .f32) (harg10 : arg10.IsWhole) (hc0 : ¬cond0_0 i) (hc1 : ¬cond0_1 i)
    (x0 : Vec F S400x128 .f32) (x1 : Vec F S400x5000 .bf16) (x2 : Vec F S5000x1 .bf16) (x3 : Vec F S1x5000 .f32) (x4 : Vec F S128x64 .f32) (x5 : Vec F S1x64 .f32) (xs : Vec F S65x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay4 x1 x2)
            ∗ owns (c : Thread nD τ) arg10 fullShare (k0_pay6 x1 x2 x0 x4 x5 xs)) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9 arg10 harg10) K := by
  rw [cc0__pass_a_eq_skeleton]; unfold cc0__pass_a_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    simp only [View.read_stored_whole2, View.readAt_eq_ld, View.ld_whole2, View.readCov_stored_whole2]
  iapply owns_of_read ?_
  swap; · iexact HS
  sl_unfold_words
  simp only [View.read_stored_whole2, View.readAt_eq_ld, View.ld_whole2, View.readCov_stored_whole2]

end Cert.Kernel.Hand

end
-- ==== Proof.KB.R0RunC.lean ====
import Idealize.ShloMosaic.Lib.Pipeline.Value
import proofs.«106240_g40587440947828_cont_8to1_b_222_22_alg».proof.Proof.KB.R0Base

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the body's run at the last block: the edge scaling and the scaled features come from the accumulator's new contents
theorem kernelRun0_C (c : Dev nD) (i : grid0.Coords) (arg1 : Memref sig .tc .vmem S400x128 .f32) (harg1 : arg1.IsWhole) (arg2 : Memref sig .tc .vmem S400x5000 .bf16) (harg2 : arg2.IsWhole)
    (arg3 : Memref sig .tc .vmem S5000x1 .bf16) (harg3 : arg3.IsWhole) (arg4 : Memref sig .tc .vmem S1x5000 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x1 .f32) (harg7 : arg7.IsWhole) (arg8 : Memref sig .tc .vmem S1x5000 .f32) (harg8 : arg8.IsWhole)
    (arg9 : Memref sig .tc .vmem S5000x64 .bf16) (harg9 : arg9.IsWhole) (arg10 : Memref sig .tc .vmem S65x5000 .f32) (harg10 : arg10.IsWhole) (hc0 : ¬cond0_0 i) (hc1 : cond0_1 i)
    (x0 : Vec F S400x128 .f32) (x1 : Vec F S400x5000 .bf16) (x2 : Vec F S5000x1 .bf16) (x3 : Vec F S1x5000 .f32) (x4 : Vec F S128x64 .f32) (x5 : Vec F S1x64 .f32) (xs : Vec F S65x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay4 x1 x2)
            ∗ owns (c : Thread nD τ) arg8 fullShare (k0_pay1 (View.ld (k0_pay6 x1 x2 x0 x4 x5 xs) rS0_last) x3)
            ∗ owns (c : Thread nD τ) arg9 fullShare (k0_pay2 (View.ld (k0_pay6 x1 x2 x0 x4 x5 xs) rS0_last) x3 (View.ld (k0_pay6 x1 x2 x0 x4 x5 xs) rS0_top))
            ∗ owns (c : Thread nD τ) arg10 fullShare (k0_pay6 x1 x2 x0 x4 x5 xs)) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9 arg10 harg10) K := by
  rw [cc0__pass_a_eq_skeleton]; unfold cc0__pass_a_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, Hk⟩
  subst hf0 hf1 hf2 hf3 hf4 hf5 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    simp only [View.read_stored_whole2, View.readAt_eq_ld, View.ld_whole2, View.readCov_stored_whole2]
  isplitl [H7]
  · iapply owns_of_read ?_
    swap; · iexact H7
    sl_unfold_words
    simp only [View.read_stored_whole2, View.readAt_eq_ld, View.ld_whole2, View.readCov_stored_whole2]
  isplitl [H8]
  · iapply owns_of_read ?_
    swap; · iexact H8
    sl_unfold_words
    simp only [View.read_stored_whole2, View.readAt_eq_ld, View.ld_whole2, View.readCov_stored_whole2]
  iapply owns_of_read ?_
  swap; · iexact HS
  sl_unfold_words
  simp only [View.read_stored_whole2, View.readAt_eq_ld, View.ld_whole2, View.readCov_stored_whole2]

end Cert.Kernel.Hand

end
-- ==== Proof.KB.R0Body.lean ====
import proofs.«106240_g40587440947828_cont_8to1_b_222_22_alg».proof.Proof.KB.R0RunA
import proofs.«106240_g40587440947828_cont_8to1_b_222_22_alg».proof.Proof.KB.R0RunB
import proofs.«106240_g40587440947828_cont_8to1_b_222_22_alg».proof.Proof.KB.R0RunC

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- acc0 at a point is one update of acc0 at the point before, of zero at the first point
theorem acc0_first (c : Dev nD) (t : Fin cfg0.N) (h : t.val = 0) :
    acc0 V c t.val = k0_pay6 (hB0 V c t) (wcB0 V c t) (xB0 V c t) (w1B0 V c t) (b1B0 V c t) (k0_pay5 (F := F)) := by
  have e : pt0 0 = t := by rw [← h]; exact pt0_val t
  rw [h, ← e]; rfl

theorem acc0_next (c : Dev nD) (t : Fin cfg0.N) (n : ℕ) (h : t.val = n + 1) :
    acc0 V c t.val = k0_pay6 (hB0 V c t) (wcB0 V c t) (xB0 V c t) (w1B0 V c t) (b1B0 V c t) (acc0 V c n) := by
  have e : pt0 (n + 1) = t := by rw [← h]; exact pt0_val t
  rw [h, ← e]; rfl

def bodyPre0 (c : Dev nD) (t : Fin cfg0.N) : sProp 𝕄 :=
  iprop(PhiS0 V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop(PhiS0 V c (t.val + 1) ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare (k0_pay4 (hB0 V c t) (wcB0 V c t))
    ∗ (dat0 V c).leavesExact 7 t ∗ (dat0 V c).leavesExact 8 t)

-- three cases by the point's place in the grid
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [PhiS0_succ]
  have hN : t.val < 25 := lt_of_lt_of_eq t.isLt cfg0_N
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dat0 V c) 7 t (idleAt0 t hc1 7 (by decide)).1 (idleAt0 t hc1 7 (by decide)).2,
      Dat.leavesExact_idle (dat0 V c) 8 t (idleAt0 t hc1 8 (by decide)).1 (idleAt0 t hc1 8 (by decide)).2,
      acc0_first V c t hz, hz, PhiS0_zero]
    iintro ⟨HΦ, Ho, ⟨%d0, H0⟩, ⟨%d1, H1⟩, ⟨%d2, H2⟩, ⟨%d3, H3⟩, ⟨%d4, H4⟩, ⟨%d5, H5⟩, ⟨%d6, H6⟩, H7, H8⟩
    icases (PhiA0_open (F := F) c) $$ HΦ with ⟨HS, Hb⟩
    iapply (kernelRun0_A c (grid0.coords t) _ _ _ _ _ _ _ _ _ _ _ _ _ _ _ _ _ _ _ _ hc0 hc1 (xB0 V c t) (hB0 V c t) (wcB0 V c t) (wrB0 V c t) (w1B0 V c t) (b1B0 V c t) Set.univ _)
    iframe H0 H1 H2 H3 H4 H5 HS
    isplitl [H6]; · iexists _; iexact H6
    iintro ⟨H0, H1, H2, H3, H4, H5, H6, HS⟩
    iframe
  · obtain ⟨n, hn⟩ : ∃ n, t.val = n + 1 := ⟨t.val - 1, by omega⟩
    have hc0 : ¬cond0_0 (grid0.coords t) := fun h => by have := (hcond0_0 t).mp h; omega
    rw [acc0_next V c t n hn, hn, PhiS0_succ]
    by_cases hl : n + 1 = 24
    · have hc1 : cond0_1 (grid0.coords t) := (hcond0_1 t).mpr (by omega)
      rw [show (dat0 V c).leavesExact 7 t = owns (c : Thread nD τ) (st0_7 t) fullShare ((dat0 V c).after 7 t) from by
          unfold Dat.leavesExact; rw [liveAt0 t hc1 7],
        show (dat0 V c).leavesExact 8 t = owns (c : Thread nD τ) (st0_8 t) fullShare ((dat0 V c).after 8 t) from by
          unfold Dat.leavesExact; rw [liveAt0 t hc1 8],
        after0_7, after0_8, acc0_next V c t n hn]
      iintro ⟨⟨HS, Hb⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernelRun0_C c (grid0.coords t) _ _ _ _ _ _ _ _ _ _ _ _ _ _ _ _ _ _ _ _ hc0 hc1 (xB0 V c t) (hB0 V c t) (wcB0 V c t) (wrB0 V c t) (w1B0 V c t) (b1B0 V c t) (acc0 V c n) Set.univ _)
      iframe H0 H1 H2 H3 H4 H5 HS
      isplitl [H6]; · iexists _; iexact H6
      isplitl [H7]; · iexists _; iexact H7
      isplitl [H8]; · iexists _; iexact H8
      iintro ⟨H0, H1, H2, H3, H4, H5, H6, H7, H8, HS⟩
      iframe
    · have hc1 : ¬cond0_1 (grid0.coords t) := fun h => by have := (hcond0_1 t).mp h; omega
      rw [Dat.leavesExact_idle (dat0 V c) 7 t (idleAt0 t hc1 7 (by decide)).1 (idleAt0 t hc1 7 (by decide)).2,
        Dat.leavesExact_idle (dat0 V c) 8 t (idleAt0 t hc1 8 (by decide)).1 (idleAt0 t hc1 8 (by decide)).2]
      iintro ⟨⟨HS, Hb⟩, Ho, ⟨%d0, H0⟩, ⟨%d1, H1⟩, ⟨%d2, H2⟩, ⟨%d3, H3⟩, ⟨%d4, H4⟩, ⟨%d5, H5⟩, ⟨%d6, H6⟩, H7, H8⟩
      iapply (kernelRun0_B c (grid0.coords t) _ _ _ _ _ _ _ _ _ _ _ _ _ _ _ _ _ _ _ _ hc0 hc1 (xB0 V c t) (hB0 V c t) (wcB0 V c t) (wrB0 V c t) (w1B0 V c t) (b1B0 V c t) (acc0 V c n) Set.univ _)
      iframe H0 H1 H2 H3 H4 H5 HS
      isplitl [H6]; · iexists _; iexact H6
      iintro ⟨H0, H1, H2, H3, H4, H5, H6, HS⟩
      iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1Base.lean ====
import proofs.«106240_g40587440947828_cont_8to1_b_222_22_alg».proof.Proof.KB.R1Dat
import proofs.«106240_g40587440947828_cont_8to1_b_222_22_alg».proof.Proof.LibBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- cond1_0 says the point is the first of the 25, cond1_1 that it is the last
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

theorem PhiA1_open (c : Dev nD) :
    (Pipeline.ΦA spec1 c : sProp 𝕄) ⊢ iprop((∃ d, owns (c : Thread nD τ) scM1_0 fullShare d) ∗ back1 (F := F) c) := by
  unfold back1 Pipeline.ΦA; rw [scopedRest1_eq]; simp only [scM1_0, owns_whole]
  iintro ⟨⟨H0, H1, H2, H3, H4, H5, H6, H7, H8, H9, H10, H11, H12, HS, H14, H15, H16, H17, H18, H19, H20, H21, H22⟩, Hg⟩
  isplitl [HS]
  · iexact HS
  iintro HS
  isplitr [Hg]
  · iframe
  iexact Hg

end Cert.Kernel.Hand

end
-- ==== Proof.KB.R1Runs.lean ====
import proofs.«106240_g40587440947828_cont_8to1_b_222_22_alg».proof.Proof.KB.R1Base

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the body's run at the first block
theorem kernelRun1_A (c : Dev nD) (i : grid1.Coords) (arg1 : Memref sig .tc .vmem S400x5000 .bf16) (harg1 : arg1.IsWhole) (arg2 : Memref sig .tc .vmem S5000x64 .bf16) (harg2 : arg2.IsWhole)
    (arg3 : Memref sig .tc .vmem S400x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x5000 .f32) (harg6 : arg6.IsWhole)
    (arg7 : Memref sig .tc .vmem S5000x64 .bf16) (harg7 : arg7.IsWhole) (arg8 : Memref sig .tc .vmem S64x5000 .f32) (harg8 : arg8.IsWhole) (hc0 : cond1_0 i) (hc1 : ¬cond1_1 i)
    (x0 : Vec F S400x5000 .bf16) (x1 : Vec F S5000x64 .bf16) (x2 : Vec F S400x1 .f32) (x3 : Vec F S64x64 .f32) (x4 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k1_pay2 x0 x2 x1 x3 x4 (k1_pay1 (F := F)))) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0 hf1 hf2 hf3 hf4
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  iapply owns_of_read ?_
  swap; · iexact HS
  sl_unfold_run_names
  simp only [View.read_stored_whole2, View.readAt_eq_ld, View.ld_whole2, View.readCov_stored_whole2]

-- the body's run at a block between
theorem kernelRun1_B (c : Dev nD) (i : grid1.Coords) (arg1 : Memref sig .tc .vmem S400x5000 .bf16) (harg1 : arg1.IsWhole) (arg2 : Memref sig .tc .vmem S5000x64 .bf16) (harg2 : arg2.IsWhole)
    (arg3 : Memref sig .tc .vmem S400x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x5000 .f32) (harg6 : arg6.IsWhole)
    (arg7 : Memref sig .tc .vmem S5000x64 .bf16) (harg7 : arg7.IsWhole) (arg8 : Memref sig .tc .vmem S64x5000 .f32) (harg8 : arg8.IsWhole) (hc0 : ¬cond1_0 i) (hc1 : ¬cond1_1 i)
    (x0 : Vec F S400x5000 .bf16) (x1 : Vec F S5000x64 .bf16) (x2 : Vec F S400x1 .f32) (x3 : Vec F S64x64 .f32) (x4 : Vec F S1x64 .f32) (xs : Vec F S64x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k1_pay2 x0 x2 x1 x3 x4 xs)) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0 hf1 hf2 hf3 hf4 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  iapply owns_of_read ?_
  swap; · iexact HS
  sl_unfold_run_names
  simp only [View.read_stored_whole2, View.readAt_eq_ld, View.ld_whole2, View.readCov_stored_whole2]

-- the body's run at the last block: the edge features come from the accumulator's new contents
theorem kernelRun1_C (c : Dev nD) (i : grid1.Coords) (arg1 : Memref sig .tc .vmem S400x5000 .bf16) (harg1 : arg1.IsWhole) (arg2 : Memref sig .tc .vmem S5000x64 .bf16) (harg2 : arg2.IsWhole)
    (arg3 : Memref sig .tc .vmem S400x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x5000 .f32) (harg6 : arg6.IsWhole)
    (arg7 : Memref sig .tc .vmem S5000x64 .bf16) (harg7 : arg7.IsWhole) (arg8 : Memref sig .tc .vmem S64x5000 .f32) (harg8 : arg8.IsWhole) (hc0 : ¬cond1_0 i) (hc1 : cond1_1 i)
    (x0 : Vec F S400x5000 .bf16) (x1 : Vec F S5000x64 .bf16) (x2 : Vec F S400x1 .f32) (x3 : Vec F S64x64 .f32) (x4 : Vec F S1x64 .f32) (x5 : Vec F S1x5000 .f32) (xs : Vec F S64x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay3 (k1_pay2 x0 x2 x1 x3 x4 xs) x5)
            ∗ owns (c : Thread nD τ) arg8 fullShare (k1_pay2 x0 x2 x1 x3 x4 xs)) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    sl_unfold_run_names
    simp only [View.read_stored_whole2, View.readAt_eq_ld, View.ld_whole2, View.readCov_stored_whole2]
  iapply owns_of_read ?_
  swap; · iexact HS
  sl_unfold_run_names
  simp only [View.read_stored_whole2, View.readAt_eq_ld, View.ld_whole2, View.readCov_stored_whole2]

end Cert.Kernel.Hand

end
-- ==== Proof.KB.R1Body.lean ====
import proofs.«106240_g40587440947828_cont_8to1_b_222_22_alg».proof.Proof.KB.R1Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- acc1 at a point is one update of acc1 at the point before, of zero at the first point
theorem acc1_first (c : Dev nD) (t : Fin cfg1.N) (h : t.val = 0) :
    acc1 V c t.val = k1_pay2 (hB1 V c t) (dB1 V c t) (eB1 V c t) (w2B1 V c t) (b2B1 V c t) (k1_pay1 (F := F)) := by
  have e : pt1 0 = t := by rw [← h]; exact pt1_val t
  rw [h, ← e]; rfl

theorem acc1_next (c : Dev nD) (t : Fin cfg1.N) (n : ℕ) (h : t.val = n + 1) :
    acc1 V c t.val = k1_pay2 (hB1 V c t) (dB1 V c t) (eB1 V c t) (w2B1 V c t) (b2B1 V c t) (acc1 V c n) := by
  have e : pt1 (n + 1) = t := by rw [← h]; exact pt1_val t
  rw [h, ← e]; rfl

def bodyPre1 (c : Dev nD) (t : Fin cfg1.N) : sProp 𝕄 :=
  iprop(PhiS1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop(PhiS1 V c (t.val + 1) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ (dat1 V c).leavesExact 6 t)

-- three cases by the point's place in the grid
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V]
  rw [PhiS1_succ]
  have hN : t.val < 25 := lt_of_lt_of_eq t.isLt cfg1_N
  by_cases hz : t.val = 0
  · have hc0 : cond1_0 (grid1.coords t) := (hcond1_0 t).mpr (by omega)
    have hc1 : ¬cond1_1 (grid1.coords t) := fun h => by have := (hcond1_1 t).mp h; omega
    rw [Dat.leavesExact_idle (dat1 V c) 6 t (idleAt1_6 t hc1) (noFlush1_6 t hc1), acc1_first V c t hz, hz, PhiS1_zero]
    iintro ⟨HΦ, Ho, ⟨%d0, H0⟩, ⟨%d1, H1⟩, ⟨%d2, H2⟩, ⟨%d3, H3⟩, ⟨%d4, H4⟩, ⟨%d5, H5⟩, H6⟩
    icases (PhiA1_open (F := F) c) $$ HΦ with ⟨HS, Hb⟩
    iapply (kernelRun1_A c (grid1.coords t) _ _ _ _ _ _ _ _ _ _ _ _ _ _ _ _ hc0 hc1 (iblk1 V c 0 t) (iblk1 V c 1 t) (iblk1 V c 2 t) (iblk1 V c 3 t) (iblk1 V c 4 t) Set.univ _)
    iframe H0 H1 H2 H3 H4 HS
    iintro ⟨H0, H1, H2, H3, H4, HS⟩
    iframe
  · obtain ⟨n, hn⟩ : ∃ n, t.val = n + 1 := ⟨t.val - 1, by omega⟩
    have hc0 : ¬cond1_0 (grid1.coords t) := fun h => by have := (hcond1_0 t).mp h; omega
    rw [acc1_next V c t n hn, hn, PhiS1_succ]
    by_cases hl : n + 1 = 24
    · have hc1 : cond1_1 (grid1.coords t) := (hcond1_1 t).mpr (by omega)
      rw [show (dat1 V c).leavesExact 6 t = owns (c : Thread nD τ) (st1_6 t) fullShare ((dat1 V c).after 6 t) from by
        unfold Dat.leavesExact; rw [liveAt1_6 t hc1], after1_6, acc1_next V c t n hn]
      iintro ⟨⟨HS, Hb⟩, Ho, ⟨%d0, H0⟩, ⟨%d1, H1⟩, ⟨%d2, H2⟩, ⟨%d3, H3⟩, ⟨%d4, H4⟩, ⟨%d5, H5⟩, ⟨%d6, H6⟩⟩
      iapply (kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) (acc1 V c n) Set.univ _)
      iframe H0 H1 H2 H3 H4 H5 HS
      isplitl [H6]; · iexists _; iexact H6
      iintro ⟨H0, H1, H2, H3, H4, H5, H6, HS⟩
      iframe
    · have hc1 : ¬cond1_1 (grid1.coords t) := fun h => by have := (hcond1_1 t).mp h; omega
      rw [Dat.leavesExact_idle (dat1 V c) 6 t (idleAt1_6 t hc1) (noFlush1_6 t hc1)]
      iintro ⟨⟨HS, Hb⟩, Ho, ⟨%d0, H0⟩, ⟨%d1, H1⟩, ⟨%d2, H2⟩, ⟨%d3, H3⟩, ⟨%d4, H4⟩, ⟨%d5, H5⟩, H6⟩
      iapply (kernelRun1_B c (grid1.coords t) _ _ _ _ _ _ _ _ _ _ _ _ _ _ _ _ hc0 hc1 (iblk1 V c 0 t) (iblk1 V c 1 t) (iblk1 V c 2 t) (iblk1 V c 3 t) (iblk1 V c 4 t) (acc1 V c n) Set.univ _)
      iframe H0 H1 H2 H3 H4 HS
      iintro ⟨H0, H1, H2, H3, H4, HS⟩
      iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2Body.lean ====
import proofs.«106240_g40587440947828_cont_8to1_b_222_22_alg».proof.Proof.KB.R2Dat
import proofs.«106240_g40587440947828_cont_8to1_b_222_22_alg».proof.Proof.LibBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the body's one store is its pure term of what it loads
theorem sound_kernel2 (c : Dev nD) (E : Set ℕ) (i : grid2.Coords)
    (arg1 : Memref sig .tc .vmem S400x5000 .bf16) (harg1 : arg1.IsWhole)
    (arg2 : Memref sig .tc .vmem S5000x64 .bf16) (harg2 : arg2.IsWhole)
    (arg3 : Memref sig .tc .vmem S400x1 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S400x64 .f32) (harg6 : arg6.IsWhole)
    (x0 : Vec F S400x5000 .bf16) (x1 : Vec F S5000x64 .bf16) (x2 : Vec F S400x1 .f32) (x3 : Vec F S64x64 .f32)
    (x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) E
          (cc2__pass_c i arg1 harg1 arg2 harg2 arg3 harg3 arg4 harg4 arg5 harg5 arg6 harg6) K := by
  simp only [cc2__pass_c_eq_skeleton]; unfold cc2__pass_c_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  iapply owns_of_read ?_
  swap; · iexact H5
  simp only [View.read_stored_whole2, View.readAt_eq_ld, View.ld_whole2]

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop(Pipeline.ΦA spec2 c ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop(Pipeline.ΦA spec2 c ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (k2_pay1 (hB2 V c t) (eB2 V c t) (dB2 V c t) (whB2 V c t) (bhB2 V c t)))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (hB2 V c t) (eB2 V c t) (dB2 V c t) (whB2 V c t) (bhB2 V c t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
import proofs.«106240_g40587440947828_cont_8to1_b_222_22_alg».proof.Proof.KB.Fold
import proofs.«106240_g40587440947828_cont_8to1_b_222_22_alg».proof.Proof.KB.R0Body
import proofs.«106240_g40587440947828_cont_8to1_b_222_22_alg».proof.Proof.KB.R1Body
import proofs.«106240_g40587440947828_cont_8to1_b_222_22_alg».proof.Proof.KB.R2Body

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

def pdats : (p : Fin 3) → (c : Dev nD) → Dat τ (Elt F) Unit ℕ (UR sig nD τ) ℕ (cfgs p) c
  | ⟨0, _⟩ => fun c => dat0 (V1 m ρ) c
  | ⟨1, _⟩ => fun c => dat1 (V2 m ρ) c
  | ⟨2, _⟩ => fun c => dat2 (V3 m ρ) c

-- @main: the host stretch from the launch contents, then the three passes, each entered from what the one before left
abbrev segs : List (Pipeline.Seg (pcfgs (F := F)) adm (pdats m ρ) () defs₀ Variants.none (fun _ => ∅) (fun _ _ => 0)) :=
  [ .host (hostOf cfgs defs₀ hostOps0 hostOps0_sub hostOps0_fresh (W0 m ρ)),
    .region (regOf cfgs (pdats m ρ) defs₀ (W1 m ρ) launch0 (body_obligation0 (V1 m ρ)) (A_eq0 (V1 m ρ)) (hin0 (V1 m ρ)) (hout0 (V1 m ρ))),
    .region (regOf cfgs (pdats m ρ) defs₀ (W2 m ρ) launch1 (body_obligation1 (V2 m ρ)) (A_eq1 (V2 m ρ)) (hin1 (V2 m ρ)) (hout1 (V2 m ρ))),
    .region (regOf cfgs (pdats m ρ) defs₀ (W3 m ρ) launch2 (body_obligation2 (V3 m ρ)) (A_eq2 (V3 m ρ)) (hin2 (V3 m ρ)) (hout2 (V3 m ρ))) ]

theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  run_segs cfgs (pdats m ρ) defs₀ cellOf_inj m ρ main (segs m ρ) (fun c => (main_chain c).trans (by chain_rfl))
    (by simp only [segs, Pipeline.Seg.pipes_host, Pipeline.Seg.pipes_region, Pipeline.Seg.pipes_nil]; decide) (W4 m ρ)
    ⟨fun _ => .rfl, fun _ => .rfl, fun _ => .rfl, fun _ => .rfl, fun c => by
      show tstate c (W4 m ρ c) ⊢ _
      iintro ⟨Hh, Hp, HO⟩
      isplitr [HO]
      · isplitl [Hh] <;> iassumption
      iexact HO⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_result : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k : ∀ b : Ref sig .tc, ¬ (Proc.devRef .tc b : DevRef τ sig).isScoped ∧ b ∉ hostOps0_W ∧ NotOut cfg0 b ∧ NotOut cfg1 b ∧ NotOut cfg2 b →
        r.2.mem ((c.tc : Thread nD τ).loc b) = m ((c.tc : Thread nD τ).loc b) := fun b hb =>
      (h c _ (mem_uc b hb.1)).trans (W4_keep m ρ c b hb.2)
    ⟨h c _ (mem_uc main_v9 (by decide)),
      k main_arg0 (by decide), k main_arg1 (by decide), k main_arg2 (by decide), k main_arg3 (by decide), k main_arg4 (by decide),
      k main_arg5 (by decide), k main_arg6 (by decide), k main_arg7 (by decide), k main_arg8 (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.Kernel.Hand

end
-- ==== Proof.KI.R0Dat.lean ====
import proofs.«106240_g40587440947828_cont_8to1_b_222_22_alg».proof.Proof.Gen.KernelIdeal.Launch
import proofs.«106240_g40587440947828_cont_8to1_b_222_22_alg».proof.Proof.Gen.KernelIdeal.Skeleton
import proofs.«106240_g40587440947828_cont_8to1_b_222_22_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xB0 (c : Dev nD) (t : Fin cfg0.N) : Vec F S400x128 .f32 := iblk0 V c 0 t
abbrev hB0 (c : Dev nD) (t : Fin cfg0.N) : Vec F S400x5000 .bf16 := iblk0 V c 1 t
abbrev wcB0 (c : Dev nD) (t : Fin cfg0.N) : Vec F S5000x1 .bf16 := iblk0 V c 2 t
abbrev wrB0 (c : Dev nD) (t : Fin cfg0.N) : Vec F S1x5000 .f32 := iblk0 V c 3 t
abbrev w1B0 (c : Dev nD) (t : Fin cfg0.N) : Vec F S128x64 .f32 := iblk0 V c 4 t
abbrev b1B0 (c : Dev nD) (t : Fin cfg0.N) : Vec F S1x64 .f32 := iblk0 V c 5 t

theorem cfg0_N : cfg0.N = 25 := N_0

def pt0 (n : ℕ) : Fin cfg0.N := ⟨n % 25, by have := cfg0_N; omega⟩

theorem pt0_val (t : Fin cfg0.N) : pt0 t.val = t := by
  apply Fin.ext; have := cfg0_N; have := t.isLt; simp only [pt0]; omega

def acc0 (c : Dev nD) : ℕ → Vec F S65x5000 .f32
  | 0 => k0_pay6 (hB0 V c (pt0 0)) (wcB0 V c (pt0 0)) (xB0 V c (pt0 0)) (w1B0 V c (pt0 0)) (b1B0 V c (pt0 0)) (k0_pay5 (F := F))
  | n + 1 => k0_pay6 (hB0 V c (pt0 (n + 1))) (wcB0 V c (pt0 (n + 1))) (xB0 V c (pt0 (n + 1))) (w1B0 V c (pt0 (n + 1))) (b1B0 V c (pt0 (n + 1))) (acc0 c n)

abbrev rS0_last : Rect S65x5000 := Rect.unit (s := S65x5000) ![64, 0] S1x5000.size inb_S65x5000_S1x5000_64_0
abbrev rS0_top : Rect S65x5000 := Rect.unit (s := S65x5000) ![0, 0] S64x5000.size inb_S65x5000_S64x5000_0_0

abbrev scM0_0 : Memref sig .tc .vmem S65x5000 .f32 := Memref.whole cc0_scratch0

def back0 (c : Dev nD) : sProp 𝕄 :=
  iprop((∃ d, owns (c : Thread nD τ) scM0_0 fullShare d) -∗ Pipeline.ΦA spec0 c)

def PhiS0 (c : Dev nD) : ℕ → sProp 𝕄
  | 0 => Pipeline.ΦA spec0 c
  | n + 1 => iprop(owns (c : Thread nD τ) scM0_0 fullShare (acc0 V c n) ∗ back0 (F := F) c)

theorem PhiS0_zero (c : Dev nD) : PhiS0 V c 0 = Pipeline.ΦA spec0 c := rfl
theorem PhiS0_succ (c : Dev nD) (n : ℕ) :
    PhiS0 V c (n + 1) = iprop(owns (c : Thread nD τ) scM0_0 fullShare (acc0 V c n) ∗ back0 (F := F) c) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay4 (hB0 V c t) (wcB0 V c t)
    | ⟨7, _⟩ => k0_pay1 (View.ld (acc0 V c t.val) rS0_last) (wrB0 V c t)
    | ⟨8, _⟩ => k0_pay2 (View.ld (acc0 V c t.val) rS0_last) (wrB0 V c t) (View.ld (acc0 V c t.val) rS0_top)
  Φ t := PhiS0 V c t.val
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = k0_pay4 (hB0 V c t) (wcB0 V c t) := by dsimp only [dat0]
theorem after0_7 (c : Dev nD) (t : Fin cfg0.N) :
    (dat0 V c).after 7 t = k0_pay1 (View.ld (acc0 V c t.val) rS0_last) (wrB0 V c t) := by dsimp only [dat0]
theorem after0_8 (c : Dev nD) (t : Fin cfg0.N) :
    (dat0 V c).after 8 t = k0_pay2 (View.ld (acc0 V c t.val) rS0_last) (wrB0 V c t) (View.ld (acc0 V c t.val) rS0_top) := by
  dsimp only [dat0]

theorem Phi0_eq (c : Dev nD) (t : Fin (cfg0.N + 1)) : (dat0 V c).Φ t = PhiS0 V c t.val := by dsimp only [dat0]

theorem hin0 (c : Dev nD) : Pipeline.ΦA spec0 c ⊢ (dat0 V c).Φ 0 := by
  rw [Phi0_eq]; exact Idealize.SL.BI.Entails.refl _

theorem hout0 (c : Dev nD) : (dat0 V c).Φ (Fin.last cfg0.N) ⊢ Pipeline.ΦA spec0 c := by
  rw [Phi0_eq, show (Fin.last cfg0.N).val = 24 + 1 from by rw [Fin.val_last]; exact cfg0_N, PhiS0_succ]
  unfold back0
  iintro ⟨HS, Hb⟩
  iapply Hb
  iexists _; iexact HS

end Cert.KernelIdeal.Hand

end
-- ==== Proof.KI.R1Dat.lean ====
import proofs.«106240_g40587440947828_cont_8to1_b_222_22_alg».proof.Proof.Gen.KernelIdeal.Launch
import proofs.«106240_g40587440947828_cont_8to1_b_222_22_alg».proof.Proof.Gen.KernelIdeal.Skeleton
import proofs.«106240_g40587440947828_cont_8to1_b_222_22_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hB1 (c : Dev nD) (t : Fin cfg1.N) : Vec F S400x5000 .bf16 := iblk1 V c 0 t
abbrev eB1 (c : Dev nD) (t : Fin cfg1.N) : Vec F S5000x64 .bf16 := iblk1 V c 1 t
abbrev dB1 (c : Dev nD) (t : Fin cfg1.N) : Vec F S400x1 .f32 := iblk1 V c 2 t
abbrev w2B1 (c : Dev nD) (t : Fin cfg1.N) : Vec F S64x64 .f32 := iblk1 V c 3 t
abbrev b2B1 (c : Dev nD) (t : Fin cfg1.N) : Vec F S1x64 .f32 := iblk1 V c 4 t
abbrev sB1 (c : Dev nD) (t : Fin cfg1.N) : Vec F S1x5000 .f32 := iblk1 V c 5 t

theorem cfg1_N : cfg1.N = 25 := N_1

def pt1 (n : ℕ) : Fin cfg1.N := ⟨n % 25, by have := cfg1_N; omega⟩

theorem pt1_val (t : Fin cfg1.N) : pt1 t.val = t := by
  apply Fin.ext; have := cfg1_N; have := t.isLt; simp only [pt1]; omega

def acc1 (c : Dev nD) : ℕ → Vec F S64x5000 .f32
  | 0 => k1_pay2 (hB1 V c (pt1 0)) (dB1 V c (pt1 0)) (eB1 V c (pt1 0)) (w2B1 V c (pt1 0)) (b2B1 V c (pt1 0)) (k1_pay1 (F := F))
  | n + 1 => k1_pay2 (hB1 V c (pt1 (n + 1))) (dB1 V c (pt1 (n + 1))) (eB1 V c (pt1 (n + 1))) (w2B1 V c (pt1 (n + 1))) (b2B1 V c (pt1 (n + 1))) (acc1 c n)

abbrev scM1_0 : Memref sig .tc .vmem S64x5000 .f32 := Memref.whole cc1_scratch0

def back1 (c : Dev nD) : sProp 𝕄 :=
  iprop((∃ d, owns (c : Thread nD τ) scM1_0 fullShare d) -∗ Pipeline.ΦA spec1 c)

def PhiS1 (c : Dev nD) : ℕ → sProp 𝕄
  | 0 => Pipeline.ΦA spec1 c
  | n + 1 => iprop(owns (c : Thread nD τ) scM1_0 fullShare (acc1 V c n) ∗ back1 (F := F) c)

theorem PhiS1_zero (c : Dev nD) : PhiS1 V c 0 = Pipeline.ΦA spec1 c := rfl
theorem PhiS1_succ (c : Dev nD) (n : ℕ) :
    PhiS1 V c (n + 1) = iprop(owns (c : Thread nD τ) scM1_0 fullShare (acc1 V c n) ∗ back1 (F := F) c) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (acc1 V c t.val) (sB1 V c t)
  Φ t := PhiS1 V c t.val
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = k1_pay3 (acc1 V c t.val) (sB1 V c t) := by dsimp only [dat1]

theorem Phi1_eq (c : Dev nD) (t : Fin (cfg1.N + 1)) : (dat1 V c).Φ t = PhiS1 V c t.val := by dsimp only [dat1]

theorem hin1 (c : Dev nD) : Pipeline.ΦA spec1 c ⊢ (dat1 V c).Φ 0 := by
  rw [Phi1_eq]; exact Idealize.SL.BI.Entails.refl _

theorem hout1 (c : Dev nD) : (dat1 V c).Φ (Fin.last cfg1.N) ⊢ Pipeline.ΦA spec1 c := by
  rw [Phi1_eq, show (Fin.last cfg1.N).val = 24 + 1 from by rw [Fin.val_last]; exact cfg1_N, PhiS1_succ]
  unfold back1
  iintro ⟨HS, Hb⟩
  iapply Hb
  iexists _; iexact HS

end Cert.KernelIdeal.Hand

end
-- ==== Proof.KI.R2Dat.lean ====
import proofs.«106240_g40587440947828_cont_8to1_b_222_22_alg».proof.Proof.Gen.KernelIdeal.Launch
import proofs.«106240_g40587440947828_cont_8to1_b_222_22_alg».proof.Proof.Gen.KernelIdeal.Skeleton
import proofs.«106240_g40587440947828_cont_8to1_b_222_22_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hB2 (c : Dev nD) (t : Fin cfg2.N) : Vec F S400x5000 .bf16 := iblk2 V c 0 t
abbrev eB2 (c : Dev nD) (t : Fin cfg2.N) : Vec F S5000x64 .bf16 := iblk2 V c 1 t
abbrev dB2 (c : Dev nD) (t : Fin cfg2.N) : Vec F S400x1 .f32 := iblk2 V c 2 t
abbrev whB2 (c : Dev nD) (t : Fin cfg2.N) : Vec F S64x64 .f32 := iblk2 V c 3 t
abbrev bhB2 (c : Dev nD) (t : Fin cfg2.N) : Vec F S1x64 .f32 := iblk2 V c 4 t

theorem cfg2_N : cfg2.N = 25 := N_2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (hB2 V c t) (eB2 V c t) (dB2 V c t) (whB2 V c t) (bhB2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = k2_pay1 (hB2 V c t) (eB2 V c t) (dB2 V c t) (whB2 V c t) (bhB2 V c t) := by dsimp only [dat2]

theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.KernelIdeal.Hand

end
-- ==== Proof.KI.Fold.lean ====
import proofs.«106240_g40587440947828_cont_8to1_b_222_22_alg».proof.Proof.KI.R0Dat
import proofs.«106240_g40587440947828_cont_8to1_b_222_22_alg».proof.Proof.KI.R1Dat
import proofs.«106240_g40587440947828_cont_8to1_b_222_22_alg».proof.Proof.KI.R2Dat
import proofs.«106240_g40587440947828_cont_8to1_b_222_22_alg».proof.Proof.Gen.KernelIdeal.Regions
import proofs.«106240_g40587440947828_cont_8to1_b_222_22_alg».proof.Proof.LibRegionSeg

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := exitW (dat0 (V1 m ρ)) (W1 m ρ)
abbrev V2 : (c : Dev nD) → (b : Ref sig .tc) → Buf (Elt F) ((c : Thread nD τ).loc b) := fun c b => W2 m ρ c b
def W3 : Dev nD → Valuation τ sig (Elt F) := exitW (dat1 (V2 m ρ)) (W2 m ρ)
abbrev V3 : (c : Dev nD) → (b : Ref sig .tc) → Buf (Elt F) ((c : Thread nD τ).loc b) := fun c b => W3 m ρ c b
def W4 : Dev nD → Valuation τ sig (Elt F) := exitW (dat2 (V3 m ρ)) (W3 m ρ)

theorem hF0 (c : Dev nD) (w : Fin cfg0.W) : (dat0 (V1 m ρ) c).arrAt w cfg0.N = V2 m ρ c (Pipeline.arrRef spec0 w) :=
  (exitW_arr _ _ c launch0.win.arr_inj w).symm
theorem hrest0 (c : Dev nD) (b : Ref sig .tc) (hb : ∀ w, Pipeline.arrRef spec0 w ≠ b) : V2 m ρ c b = V1 m ρ c b :=
  exitW_of_ne _ _ c b hb
theorem hF1 (c : Dev nD) (w : Fin cfg1.W) : (dat1 (V2 m ρ) c).arrAt w cfg1.N = V3 m ρ c (Pipeline.arrRef spec1 w) :=
  (exitW_arr _ _ c launch1.win.arr_inj w).symm
theorem hrest1 (c : Dev nD) (b : Ref sig .tc) (hb : ∀ w, Pipeline.arrRef spec1 w ≠ b) : V3 m ρ c b = V2 m ρ c b :=
  exitW_of_ne _ _ c b hb
theorem W4_result (c : Dev nD) : W4 m ρ c (Proc.devRef .tc main_v9) = (dat2 (V3 m ρ) c).arrAt 5 cfg2.N :=
  exitW_arr _ _ c launch2.win.arr_inj 5

-- a buffer no host operation writes and no pass writes back ends as launched
theorem W4_keep (c : Dev nD) (b : Ref sig .tc)
    (h : b ∉ hostOps0_W ∧ NotOut cfg0 b ∧ NotOut cfg1 b ∧ NotOut cfg2 b) :
    W4 m ρ c (Proc.devRef .tc b) = m ((c : Thread nD τ).loc b) :=
  (exitW_keep _ _ c launch2.win.arr_inj (A_eq2 _ c) b h.2.2.2).trans <|
    (exitW_keep _ _ c launch1.win.arr_inj (A_eq1 _ c) b h.2.2.1).trans <|
      (exitW_keep _ _ c launch0.win.arr_inj (A_eq0 _ c) b h.2.1).trans <|
        StableHlo.after_of_writes_sub hostOps0 _ hostOps0_writes h.1

end Cert.KernelIdeal.Hand

end
-- ==== Proof.KI.R0Base.lean ====
import proofs.«106240_g40587440947828_cont_8to1_b_222_22_alg».proof.Proof.KI.R0Dat
import proofs.«106240_g40587440947828_cont_8to1_b_222_22_alg».proof.Proof.LibBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- cond0_0 says the point is the first of the 25, cond0_1 that it is the last
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idleAt0 : ∀ t : Fin cfg0.N, ¬cond0_1 (grid0.coords t) → ∀ w : Fin cfg0.W, 7 ≤ w.val →
    cfg0.idle w (grid0.coords t) = true ∧ (cfg0.win w).flush t = false := by decide +kernel
theorem liveAt0 : ∀ t : Fin cfg0.N, cond0_1 (grid0.coords t) → ∀ w : Fin cfg0.W, cfg0.idle w (grid0.coords t) = false := by decide +kernel

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

theorem PhiA0_open (c : Dev nD) :
    (Pipeline.ΦA spec0 c : sProp 𝕄) ⊢ iprop((∃ d, owns (c : Thread nD τ) scM0_0 fullShare d) ∗ back0 (F := F) c) := by
  unfold back0 Pipeline.ΦA; rw [scopedRest0_eq]; simp only [scM0_0, owns_whole]
  iintro ⟨⟨HS, HR⟩, Hg⟩
  isplitl [HS]; · iexact HS
  iintro HS
  iframe

end Cert.KernelIdeal.Hand

end
-- ==== Proof.KI.R0RunA.lean ====
import Idealize.ShloMosaic.Lib.Pipeline.Value
import proofs.«106240_g40587440947828_cont_8to1_b_222_22_alg».proof.Proof.KI.R0Base

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the body's run at the first block
theorem kernelRun0_A (c : Dev nD) (i : grid0.Coords) (arg1 : Memref sig .tc .vmem S400x128 .f32) (harg1 : arg1.IsWhole) (arg2 : Memref sig .tc .vmem S400x5000 .bf16) (harg2 : arg2.IsWhole)
    (arg3 : Memref sig .tc .vmem S5000x1 .bf16) (harg3 : arg3.IsWhole) (arg4 : Memref sig .tc .vmem S1x5000 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x1 .f32) (harg7 : arg7.IsWhole) (arg8 : Memref sig .tc .vmem S1x5000 .f32) (harg8 : arg8.IsWhole)
    (arg9 : Memref sig .tc .vmem S5000x64 .bf16) (harg9 : arg9.IsWhole) (arg10 : Memref sig .tc .vmem S65x5000 .f32) (harg10 : arg10.IsWhole) (hc0 : cond0_0 i) (hc1 : ¬cond0_1 i)
    (x0 : Vec F S400x128 .f32) (x1 : Vec F S400x5000 .bf16) (x2 : Vec F S5000x1 .bf16) (x3 : Vec F S1x5000 .f32) (x4 : Vec F S128x64 .f32) (x5 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay4 x1 x2)
            ∗ owns (c : Thread nD τ) arg10 fullShare (k0_pay6 x1 x2 x0 x4 x5 (k0_pay5 (F := F)))) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9 arg10 harg10) K := by
  rw [cc0__pass_a_eq_skeleton]; unfold cc0__pass_a_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  subst hf0 hf1 hf2 hf3 hf4 hf5
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    simp only [View.read_stored_whole2, View.readAt_eq_ld, View.ld_whole2, View.readCov_stored_whole2]
  iapply owns_of_read ?_
  swap; · iexact HS
  sl_unfold_words
  simp only [View.read_stored_whole2, View.readAt_eq_ld, View.ld_whole2, View.readCov_stored_whole2]

end Cert.KernelIdeal.Hand

end
-- ==== Proof.KI.R0RunB.lean ====
import Idealize.ShloMosaic.Lib.Pipeline.Value
import proofs.«106240_g40587440947828_cont_8to1_b_222_22_alg».proof.Proof.KI.R0Base

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the body's run at a block between
theorem kernelRun0_B (c : Dev nD) (i : grid0.Coords) (arg1 : Memref sig .tc .vmem S400x128 .f32) (harg1 : arg1.IsWhole) (arg2 : Memref sig .tc .vmem S400x5000 .bf16) (harg2 : arg2.IsWhole)
    (arg3 : Memref sig .tc .vmem S5000x1 .bf16) (harg3 : arg3.IsWhole) (arg4 : Memref sig .tc .vmem S1x5000 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x1 .f32) (harg7 : arg7.IsWhole) (arg8 : Memref sig .tc .vmem S1x5000 .f32) (harg8 : arg8.IsWhole)
    (arg9 : Memref sig .tc .vmem S5000x64 .bf16) (harg9 : arg9.IsWhole) (arg10 : Memref sig .tc .vmem S65x5000 .f32) (harg10 : arg10.IsWhole) (hc0 : ¬cond0_0 i) (hc1 : ¬cond0_1 i)
    (x0 : Vec F S400x128 .f32) (x1 : Vec F S400x5000 .bf16) (x2 : Vec F S5000x1 .bf16) (x3 : Vec F S1x5000 .f32) (x4 : Vec F S128x64 .f32) (x5 : Vec F S1x64 .f32) (xs : Vec F S65x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay4 x1 x2)
            ∗ owns (c : Thread nD τ) arg10 fullShare (k0_pay6 x1 x2 x0 x4 x5 xs)) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9 arg10 harg10) K := by
  rw [cc0__pass_a_eq_skeleton]; unfold cc0__pass_a_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    simp only [View.read_stored_whole2, View.readAt_eq_ld, View.ld_whole2, View.readCov_stored_whole2]
  iapply owns_of_read ?_
  swap; · iexact HS
  sl_unfold_words
  simp only [View.read_stored_whole2, View.readAt_eq_ld, View.ld_whole2, View.readCov_stored_whole2]

end Cert.KernelIdeal.Hand

end
-- ==== Proof.KI.R0RunC.lean ====
import Idealize.ShloMosaic.Lib.Pipeline.Value
import proofs.«106240_g40587440947828_cont_8to1_b_222_22_alg».proof.Proof.KI.R0Base

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the body's run at the last block: the edge scaling and the scaled features come from the accumulator's new contents
theorem kernelRun0_C (c : Dev nD) (i : grid0.Coords) (arg1 : Memref sig .tc .vmem S400x128 .f32) (harg1 : arg1.IsWhole) (arg2 : Memref sig .tc .vmem S400x5000 .bf16) (harg2 : arg2.IsWhole)
    (arg3 : Memref sig .tc .vmem S5000x1 .bf16) (harg3 : arg3.IsWhole) (arg4 : Memref sig .tc .vmem S1x5000 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x1 .f32) (harg7 : arg7.IsWhole) (arg8 : Memref sig .tc .vmem S1x5000 .f32) (harg8 : arg8.IsWhole)
    (arg9 : Memref sig .tc .vmem S5000x64 .bf16) (harg9 : arg9.IsWhole) (arg10 : Memref sig .tc .vmem S65x5000 .f32) (harg10 : arg10.IsWhole) (hc0 : ¬cond0_0 i) (hc1 : cond0_1 i)
    (x0 : Vec F S400x128 .f32) (x1 : Vec F S400x5000 .bf16) (x2 : Vec F S5000x1 .bf16) (x3 : Vec F S1x5000 .f32) (x4 : Vec F S128x64 .f32) (x5 : Vec F S1x64 .f32) (xs : Vec F S65x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay4 x1 x2)
            ∗ owns (c : Thread nD τ) arg8 fullShare (k0_pay1 (View.ld (k0_pay6 x1 x2 x0 x4 x5 xs) rS0_last) x3)
            ∗ owns (c : Thread nD τ) arg9 fullShare (k0_pay2 (View.ld (k0_pay6 x1 x2 x0 x4 x5 xs) rS0_last) x3 (View.ld (k0_pay6 x1 x2 x0 x4 x5 xs) rS0_top))
            ∗ owns (c : Thread nD τ) arg10 fullShare (k0_pay6 x1 x2 x0 x4 x5 xs)) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9 arg10 harg10) K := by
  rw [cc0__pass_a_eq_skeleton]; unfold cc0__pass_a_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, Hk⟩
  subst hf0 hf1 hf2 hf3 hf4 hf5 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    simp only [View.read_stored_whole2, View.readAt_eq_ld, View.ld_whole2, View.readCov_stored_whole2]
  isplitl [H7]
  · iapply owns_of_read ?_
    swap; · iexact H7
    sl_unfold_words
    simp only [View.read_stored_whole2, View.readAt_eq_ld, View.ld_whole2, View.readCov_stored_whole2]
  isplitl [H8]
  · iapply owns_of_read ?_
    swap; · iexact H8
    sl_unfold_words
    simp only [View.read_stored_whole2, View.readAt_eq_ld, View.ld_whole2, View.readCov_stored_whole2]
  iapply owns_of_read ?_
  swap; · iexact HS
  sl_unfold_words
  simp only [View.read_stored_whole2, View.readAt_eq_ld, View.ld_whole2, View.readCov_stored_whole2]

end Cert.KernelIdeal.Hand

end
-- ==== Proof.KI.R0Body.lean ====
import proofs.«106240_g40587440947828_cont_8to1_b_222_22_alg».proof.Proof.KI.R0RunA
import proofs.«106240_g40587440947828_cont_8to1_b_222_22_alg».proof.Proof.KI.R0RunB
import proofs.«106240_g40587440947828_cont_8to1_b_222_22_alg».proof.Proof.KI.R0RunC

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- acc0 at a point is one update of acc0 at the point before, of zero at the first point
theorem acc0_first (c : Dev nD) (t : Fin cfg0.N) (h : t.val = 0) :
    acc0 V c t.val = k0_pay6 (hB0 V c t) (wcB0 V c t) (xB0 V c t) (w1B0 V c t) (b1B0 V c t) (k0_pay5 (F := F)) := by
  have e : pt0 0 = t := by rw [← h]; exact pt0_val t
  rw [h, ← e]; rfl

theorem acc0_next (c : Dev nD) (t : Fin cfg0.N) (n : ℕ) (h : t.val = n + 1) :
    acc0 V c t.val = k0_pay6 (hB0 V c t) (wcB0 V c t) (xB0 V c t) (w1B0 V c t) (b1B0 V c t) (acc0 V c n) := by
  have e : pt0 (n + 1) = t := by rw [← h]; exact pt0_val t
  rw [h, ← e]; rfl

def bodyPre0 (c : Dev nD) (t : Fin cfg0.N) : sProp 𝕄 :=
  iprop(PhiS0 V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop(PhiS0 V c (t.val + 1) ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare (k0_pay4 (hB0 V c t) (wcB0 V c t))
    ∗ (dat0 V c).leavesExact 7 t ∗ (dat0 V c).leavesExact 8 t)

-- three cases by the point's place in the grid
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [PhiS0_succ]
  have hN : t.val < 25 := lt_of_lt_of_eq t.isLt cfg0_N
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dat0 V c) 7 t (idleAt0 t hc1 7 (by decide)).1 (idleAt0 t hc1 7 (by decide)).2,
      Dat.leavesExact_idle (dat0 V c) 8 t (idleAt0 t hc1 8 (by decide)).1 (idleAt0 t hc1 8 (by decide)).2,
      acc0_first V c t hz, hz, PhiS0_zero]
    iintro ⟨HΦ, Ho, ⟨%d0, H0⟩, ⟨%d1, H1⟩, ⟨%d2, H2⟩, ⟨%d3, H3⟩, ⟨%d4, H4⟩, ⟨%d5, H5⟩, ⟨%d6, H6⟩, H7, H8⟩
    icases (PhiA0_open (F := F) c) $$ HΦ with ⟨HS, Hb⟩
    iapply (kernelRun0_A c (grid0.coords t) _ _ _ _ _ _ _ _ _ _ _ _ _ _ _ _ _ _ _ _ hc0 hc1 (xB0 V c t) (hB0 V c t) (wcB0 V c t) (wrB0 V c t) (w1B0 V c t) (b1B0 V c t) Set.univ _)
    iframe H0 H1 H2 H3 H4 H5 HS
    isplitl [H6]; · iexists _; iexact H6
    iintro ⟨H0, H1, H2, H3, H4, H5, H6, HS⟩
    iframe
  · obtain ⟨n, hn⟩ : ∃ n, t.val = n + 1 := ⟨t.val - 1, by omega⟩
    have hc0 : ¬cond0_0 (grid0.coords t) := fun h => by have := (hcond0_0 t).mp h; omega
    rw [acc0_next V c t n hn, hn, PhiS0_succ]
    by_cases hl : n + 1 = 24
    · have hc1 : cond0_1 (grid0.coords t) := (hcond0_1 t).mpr (by omega)
      rw [show (dat0 V c).leavesExact 7 t = owns (c : Thread nD τ) (st0_7 t) fullShare ((dat0 V c).after 7 t) from by
          unfold Dat.leavesExact; rw [liveAt0 t hc1 7],
        show (dat0 V c).leavesExact 8 t = owns (c : Thread nD τ) (st0_8 t) fullShare ((dat0 V c).after 8 t) from by
          unfold Dat.leavesExact; rw [liveAt0 t hc1 8],
        after0_7, after0_8, acc0_next V c t n hn]
      iintro ⟨⟨HS, Hb⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernelRun0_C c (grid0.coords t) _ _ _ _ _ _ _ _ _ _ _ _ _ _ _ _ _ _ _ _ hc0 hc1 (xB0 V c t) (hB0 V c t) (wcB0 V c t) (wrB0 V c t) (w1B0 V c t) (b1B0 V c t) (acc0 V c n) Set.univ _)
      iframe H0 H1 H2 H3 H4 H5 HS
      isplitl [H6]; · iexists _; iexact H6
      isplitl [H7]; · iexists _; iexact H7
      isplitl [H8]; · iexists _; iexact H8
      iintro ⟨H0, H1, H2, H3, H4, H5, H6, H7, H8, HS⟩
      iframe
    · have hc1 : ¬cond0_1 (grid0.coords t) := fun h => by have := (hcond0_1 t).mp h; omega
      rw [Dat.leavesExact_idle (dat0 V c) 7 t (idleAt0 t hc1 7 (by decide)).1 (idleAt0 t hc1 7 (by decide)).2,
        Dat.leavesExact_idle (dat0 V c) 8 t (idleAt0 t hc1 8 (by decide)).1 (idleAt0 t hc1 8 (by decide)).2]
      iintro ⟨⟨HS, Hb⟩, Ho, ⟨%d0, H0⟩, ⟨%d1, H1⟩, ⟨%d2, H2⟩, ⟨%d3, H3⟩, ⟨%d4, H4⟩, ⟨%d5, H5⟩, ⟨%d6, H6⟩, H7, H8⟩
      iapply (kernelRun0_B c (grid0.coords t) _ _ _ _ _ _ _ _ _ _ _ _ _ _ _ _ _ _ _ _ hc0 hc1 (xB0 V c t) (hB0 V c t) (wcB0 V c t) (wrB0 V c t) (w1B0 V c t) (b1B0 V c t) (acc0 V c n) Set.univ _)
      iframe H0 H1 H2 H3 H4 H5 HS
      isplitl [H6]; · iexists _; iexact H6
      iintro ⟨H0, H1, H2, H3, H4, H5, H6, HS⟩
      iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Base.lean ====
import proofs.«106240_g40587440947828_cont_8to1_b_222_22_alg».proof.Proof.KI.R1Dat
import proofs.«106240_g40587440947828_cont_8to1_b_222_22_alg».proof.Proof.LibBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- cond1_0 says the point is the first of the 25, cond1_1 that it is the last
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

theorem PhiA1_open (c : Dev nD) :
    (Pipeline.ΦA spec1 c : sProp 𝕄) ⊢ iprop((∃ d, owns (c : Thread nD τ) scM1_0 fullShare d) ∗ back1 (F := F) c) := by
  unfold back1 Pipeline.ΦA; rw [scopedRest1_eq]; simp only [scM1_0, owns_whole]
  iintro ⟨⟨H0, H1, H2, H3, H4, H5, H6, H7, H8, H9, H10, H11, H12, HS, H14, H15, H16, H17, H18, H19, H20, H21, H22⟩, Hg⟩
  isplitl [HS]
  · iexact HS
  iintro HS
  isplitr [Hg]
  · iframe
  iexact Hg

end Cert.KernelIdeal.Hand

end
-- ==== Proof.KI.R1Runs.lean ====
import proofs.«106240_g40587440947828_cont_8to1_b_222_22_alg».proof.Proof.KI.R1Base

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the body's run at the first block
theorem kernelRun1_A (c : Dev nD) (i : grid1.Coords) (arg1 : Memref sig .tc .vmem S400x5000 .bf16) (harg1 : arg1.IsWhole) (arg2 : Memref sig .tc .vmem S5000x64 .bf16) (harg2 : arg2.IsWhole)
    (arg3 : Memref sig .tc .vmem S400x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x5000 .f32) (harg6 : arg6.IsWhole)
    (arg7 : Memref sig .tc .vmem S5000x64 .bf16) (harg7 : arg7.IsWhole) (arg8 : Memref sig .tc .vmem S64x5000 .f32) (harg8 : arg8.IsWhole) (hc0 : cond1_0 i) (hc1 : ¬cond1_1 i)
    (x0 : Vec F S400x5000 .bf16) (x1 : Vec F S5000x64 .bf16) (x2 : Vec F S400x1 .f32) (x3 : Vec F S64x64 .f32) (x4 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k1_pay2 x0 x2 x1 x3 x4 (k1_pay1 (F := F)))) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0 hf1 hf2 hf3 hf4
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  iapply owns_of_read ?_
  swap; · iexact HS
  sl_unfold_run_names
  simp only [View.read_stored_whole2, View.readAt_eq_ld, View.ld_whole2, View.readCov_stored_whole2]

-- the body's run at a block between
theorem kernelRun1_B (c : Dev nD) (i : grid1.Coords) (arg1 : Memref sig .tc .vmem S400x5000 .bf16) (harg1 : arg1.IsWhole) (arg2 : Memref sig .tc .vmem S5000x64 .bf16) (harg2 : arg2.IsWhole)
    (arg3 : Memref sig .tc .vmem S400x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x5000 .f32) (harg6 : arg6.IsWhole)
    (arg7 : Memref sig .tc .vmem S5000x64 .bf16) (harg7 : arg7.IsWhole) (arg8 : Memref sig .tc .vmem S64x5000 .f32) (harg8 : arg8.IsWhole) (hc0 : ¬cond1_0 i) (hc1 : ¬cond1_1 i)
    (x0 : Vec F S400x5000 .bf16) (x1 : Vec F S5000x64 .bf16) (x2 : Vec F S400x1 .f32) (x3 : Vec F S64x64 .f32) (x4 : Vec F S1x64 .f32) (xs : Vec F S64x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k1_pay2 x0 x2 x1 x3 x4 xs)) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0 hf1 hf2 hf3 hf4 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  iapply owns_of_read ?_
  swap; · iexact HS
  sl_unfold_run_names
  simp only [View.read_stored_whole2, View.readAt_eq_ld, View.ld_whole2, View.readCov_stored_whole2]

-- the body's run at the last block: the edge features come from the accumulator's new contents
theorem kernelRun1_C (c : Dev nD) (i : grid1.Coords) (arg1 : Memref sig .tc .vmem S400x5000 .bf16) (harg1 : arg1.IsWhole) (arg2 : Memref sig .tc .vmem S5000x64 .bf16) (harg2 : arg2.IsWhole)
    (arg3 : Memref sig .tc .vmem S400x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x5000 .f32) (harg6 : arg6.IsWhole)
    (arg7 : Memref sig .tc .vmem S5000x64 .bf16) (harg7 : arg7.IsWhole) (arg8 : Memref sig .tc .vmem S64x5000 .f32) (harg8 : arg8.IsWhole) (hc0 : ¬cond1_0 i) (hc1 : cond1_1 i)
    (x0 : Vec F S400x5000 .bf16) (x1 : Vec F S5000x64 .bf16) (x2 : Vec F S400x1 .f32) (x3 : Vec F S64x64 .f32) (x4 : Vec F S1x64 .f32) (x5 : Vec F S1x5000 .f32) (xs : Vec F S64x5000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay3 (k1_pay2 x0 x2 x1 x3 x4 xs) x5)
            ∗ owns (c : Thread nD τ) arg8 fullShare (k1_pay2 x0 x2 x1 x3 x4 xs)) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  isplitl [H5]; · iapply owns_of_read rfl; iexact H5
  isplitl [H6]
  · iapply owns_of_read ?_
    swap; · iexact H6
    sl_unfold_run_names
    simp only [View.read_stored_whole2, View.readAt_eq_ld, View.ld_whole2, View.readCov_stored_whole2]
  iapply owns_of_read ?_
  swap; · iexact HS
  sl_unfold_run_names
  simp only [View.read_stored_whole2, View.readAt_eq_ld, View.ld_whole2, View.readCov_stored_whole2]

end Cert.KernelIdeal.Hand

end
-- ==== Proof.KI.R1Body.lean ====
import proofs.«106240_g40587440947828_cont_8to1_b_222_22_alg».proof.Proof.KI.R1Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- acc1 at a point is one update of acc1 at the point before, of zero at the first point
theorem acc1_first (c : Dev nD) (t : Fin cfg1.N) (h : t.val = 0) :
    acc1 V c t.val = k1_pay2 (hB1 V c t) (dB1 V c t) (eB1 V c t) (w2B1 V c t) (b2B1 V c t) (k1_pay1 (F := F)) := by
  have e : pt1 0 = t := by rw [← h]; exact pt1_val t
  rw [h, ← e]; rfl

theorem acc1_next (c : Dev nD) (t : Fin cfg1.N) (n : ℕ) (h : t.val = n + 1) :
    acc1 V c t.val = k1_pay2 (hB1 V c t) (dB1 V c t) (eB1 V c t) (w2B1 V c t) (b2B1 V c t) (acc1 V c n) := by
  have e : pt1 (n + 1) = t := by rw [← h]; exact pt1_val t
  rw [h, ← e]; rfl

def bodyPre1 (c : Dev nD) (t : Fin cfg1.N) : sProp 𝕄 :=
  iprop(PhiS1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop(PhiS1 V c (t.val + 1) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ (dat1 V c).leavesExact 6 t)

-- three cases by the point's place in the grid
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V]
  rw [PhiS1_succ]
  have hN : t.val < 25 := lt_of_lt_of_eq t.isLt cfg1_N
  by_cases hz : t.val = 0
  · have hc0 : cond1_0 (grid1.coords t) := (hcond1_0 t).mpr (by omega)
    have hc1 : ¬cond1_1 (grid1.coords t) := fun h => by have := (hcond1_1 t).mp h; omega
    rw [Dat.leavesExact_idle (dat1 V c) 6 t (idleAt1_6 t hc1) (noFlush1_6 t hc1), acc1_first V c t hz, hz, PhiS1_zero]
    iintro ⟨HΦ, Ho, ⟨%d0, H0⟩, ⟨%d1, H1⟩, ⟨%d2, H2⟩, ⟨%d3, H3⟩, ⟨%d4, H4⟩, ⟨%d5, H5⟩, H6⟩
    icases (PhiA1_open (F := F) c) $$ HΦ with ⟨HS, Hb⟩
    iapply (kernelRun1_A c (grid1.coords t) _ _ _ _ _ _ _ _ _ _ _ _ _ _ _ _ hc0 hc1 (iblk1 V c 0 t) (iblk1 V c 1 t) (iblk1 V c 2 t) (iblk1 V c 3 t) (iblk1 V c 4 t) Set.univ _)
    iframe H0 H1 H2 H3 H4 HS
    iintro ⟨H0, H1, H2, H3, H4, HS⟩
    iframe
  · obtain ⟨n, hn⟩ : ∃ n, t.val = n + 1 := ⟨t.val - 1, by omega⟩
    have hc0 : ¬cond1_0 (grid1.coords t) := fun h => by have := (hcond1_0 t).mp h; omega
    rw [acc1_next V c t n hn, hn, PhiS1_succ]
    by_cases hl : n + 1 = 24
    · have hc1 : cond1_1 (grid1.coords t) := (hcond1_1 t).mpr (by omega)
      rw [show (dat1 V c).leavesExact 6 t = owns (c : Thread nD τ) (st1_6 t) fullShare ((dat1 V c).after 6 t) from by
        unfold Dat.leavesExact; rw [liveAt1_6 t hc1], after1_6, acc1_next V c t n hn]
      iintro ⟨⟨HS, Hb⟩, Ho, ⟨%d0, H0⟩, ⟨%d1, H1⟩, ⟨%d2, H2⟩, ⟨%d3, H3⟩, ⟨%d4, H4⟩, ⟨%d5, H5⟩, ⟨%d6, H6⟩⟩
      iapply (kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) (acc1 V c n) Set.univ _)
      iframe H0 H1 H2 H3 H4 H5 HS
      isplitl [H6]; · iexists _; iexact H6
      iintro ⟨H0, H1, H2, H3, H4, H5, H6, HS⟩
      iframe
    · have hc1 : ¬cond1_1 (grid1.coords t) := fun h => by have := (hcond1_1 t).mp h; omega
      rw [Dat.leavesExact_idle (dat1 V c) 6 t (idleAt1_6 t hc1) (noFlush1_6 t hc1)]
      iintro ⟨⟨HS, Hb⟩, Ho, ⟨%d0, H0⟩, ⟨%d1, H1⟩, ⟨%d2, H2⟩, ⟨%d3, H3⟩, ⟨%d4, H4⟩, ⟨%d5, H5⟩, H6⟩
      iapply (kernelRun1_B c (grid1.coords t) _ _ _ _ _ _ _ _ _ _ _ _ _ _ _ _ hc0 hc1 (iblk1 V c 0 t) (iblk1 V c 1 t) (iblk1 V c 2 t) (iblk1 V c 3 t) (iblk1 V c 4 t) (acc1 V c n) Set.univ _)
      iframe H0 H1 H2 H3 H4 HS
      iintro ⟨H0, H1, H2, H3, H4, HS⟩
      iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Body.lean ====
import proofs.«106240_g40587440947828_cont_8to1_b_222_22_alg».proof.Proof.KI.R2Dat
import proofs.«106240_g40587440947828_cont_8to1_b_222_22_alg».proof.Proof.LibBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the body's one store is its pure term of what it loads
theorem sound_kernel2 (c : Dev nD) (E : Set ℕ) (i : grid2.Coords)
    (arg1 : Memref sig .tc .vmem S400x5000 .bf16) (harg1 : arg1.IsWhole)
    (arg2 : Memref sig .tc .vmem S5000x64 .bf16) (harg2 : arg2.IsWhole)
    (arg3 : Memref sig .tc .vmem S400x1 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S400x64 .f32) (harg6 : arg6.IsWhole)
    (x0 : Vec F S400x5000 .bf16) (x1 : Vec F S5000x64 .bf16) (x2 : Vec F S400x1 .f32) (x3 : Vec F S64x64 .f32)
    (x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) E
          (cc2__pass_c i arg1 harg1 arg2 harg2 arg3 harg3 arg4 harg4 arg5 harg5 arg6 harg6) K := by
  simp only [cc2__pass_c_eq_skeleton]; unfold cc2__pass_c_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_of_read rfl; iexact H0
  isplitl [H1]; · iapply owns_of_read rfl; iexact H1
  isplitl [H2]; · iapply owns_of_read rfl; iexact H2
  isplitl [H3]; · iapply owns_of_read rfl; iexact H3
  isplitl [H4]; · iapply owns_of_read rfl; iexact H4
  iapply owns_of_read ?_
  swap; · iexact H5
  simp only [View.read_stored_whole2, View.readAt_eq_ld, View.ld_whole2]

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop(Pipeline.ΦA spec2 c ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop(Pipeline.ΦA spec2 c ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (k2_pay1 (hB2 V c t) (eB2 V c t) (dB2 V c t) (whB2 V c t) (bhB2 V c t)))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (hB2 V c t) (eB2 V c t) (dB2 V c t) (whB2 V c t) (bhB2 V c t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«106240_g40587440947828_cont_8to1_b_222_22_alg».proof.Proof.KI.Fold
import proofs.«106240_g40587440947828_cont_8to1_b_222_22_alg».proof.Proof.KI.R0Body
import proofs.«106240_g40587440947828_cont_8to1_b_222_22_alg».proof.Proof.KI.R1Body
import proofs.«106240_g40587440947828_cont_8to1_b_222_22_alg».proof.Proof.KI.R2Body

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

def pdats : (p : Fin 3) → (c : Dev nD) → Dat τ (Elt F) Unit ℕ (UR sig nD τ) ℕ (cfgs p) c
  | ⟨0, _⟩ => fun c => dat0 (V1 m ρ) c
  | ⟨1, _⟩ => fun c => dat1 (V2 m ρ) c
  | ⟨2, _⟩ => fun c => dat2 (V3 m ρ) c

-- @main: the host stretch from the launch contents, then the three passes, each entered from what the one before left
abbrev segs : List (Pipeline.Seg (pcfgs (F := F)) adm (pdats m ρ) () defs₀ Variants.none (fun _ => ∅) (fun _ _ => 0)) :=
  [ .host (hostOf cfgs defs₀ hostOps0 hostOps0_sub hostOps0_fresh (W0 m ρ)),
    .region (regOf cfgs (pdats m ρ) defs₀ (W1 m ρ) launch0 (body_obligation0 (V1 m ρ)) (A_eq0 (V1 m ρ)) (hin0 (V1 m ρ)) (hout0 (V1 m ρ))),
    .region (regOf cfgs (pdats m ρ) defs₀ (W2 m ρ) launch1 (body_obligation1 (V2 m ρ)) (A_eq1 (V2 m ρ)) (hin1 (V2 m ρ)) (hout1 (V2 m ρ))),
    .region (regOf cfgs (pdats m ρ) defs₀ (W3 m ρ) launch2 (body_obligation2 (V3 m ρ)) (A_eq2 (V3 m ρ)) (hin2 (V3 m ρ)) (hout2 (V3 m ρ))) ]

theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  run_segs cfgs (pdats m ρ) defs₀ cellOf_inj m ρ main (segs m ρ) (fun c => (main_chain c).trans (by chain_rfl))
    (by simp only [segs, Pipeline.Seg.pipes_host, Pipeline.Seg.pipes_region, Pipeline.Seg.pipes_nil]; decide) (W4 m ρ)
    ⟨fun _ => .rfl, fun _ => .rfl, fun _ => .rfl, fun _ => .rfl, fun c => by
      show tstate c (W4 m ρ c) ⊢ _
      iintro ⟨Hh, Hp, HO⟩
      isplitr [HO]
      · isplitl [Hh] <;> iassumption
      iexact HO⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_result : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k : ∀ b : Ref sig .tc, ¬ (Proc.devRef .tc b : DevRef τ sig).isScoped ∧ b ∉ hostOps0_W ∧ NotOut cfg0 b ∧ NotOut cfg1 b ∧ NotOut cfg2 b →
        r.2.mem ((c.tc : Thread nD τ).loc b) = m ((c.tc : Thread nD τ).loc b) := fun b hb =>
      (h c _ (mem_uc b hb.1)).trans (W4_keep m ρ c b hb.2)
    ⟨h c _ (mem_uc main_v9 (by decide)),
      k main_arg0 (by decide), k main_arg1 (by decide), k main_arg2 (by decide), k main_arg3 (by decide), k main_arg4 (by decide),
      k main_arg5 (by decide), k main_arg6 (by decide), k main_arg7 (by decide), k main_arg8 (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.KernelIdeal.Hand

end
-- ==== Proof.KI.R0Arr.lean ====
import proofs.«106240_g40587440947828_cont_8to1_b_222_22_alg».proof.Proof.KI.R0Dat
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem r0arr_idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem r0_arr7 (c : Dev nD) :
    ((dat0 V c).arrAt 7 cfg0.N : S1x5000.Idx → EReal)
      = k0_pay1 (F := Ideal) (View.ld (acc0 V c 24) rS0_last) (wrB0 V c (pt0 24)) := by
  have hz : (fun a => win0_7.index (pt0 24) a * main_v7_1.ty.shape.size a) = fun _ => 0 := funext fun a => by
    match a with
    | ⟨0, _⟩ => show win0_7.index (pt0 24) (0 : Fin 2) * 1 = 0; rw [(r0arr_idx7 _).1]
    | ⟨1, _⟩ => show win0_7.index (pt0 24) (1 : Fin 2) * 5000 = 0; rw [(r0arr_idx7 _).2]
  refine (dat0 V c).arrAt_eq_of_cover 7 _ (fun t hf => ?_) (fun i => ⟨pt0 24, (flush0_7 _).mpr rfl, ?_⟩)
  · obtain rfl : t = pt0 24 := Fin.ext (by
      have := (flush0_7 t).mp hf; have := t.isLt; have := cfg0_N; show t.val = 24 % 25; omega)
    show (cfg0.win 7).cut (grid0.coords (pt0 24)) ((dat0 V c).after 7 (pt0 24)) = _
    rw [after0_7]
    exact (Memref.read_access_unit_zero (Elt Ideal) main_v7_1 hz (fun a => by rw [congrFun hz a]; simp) _).symm
  · show i ∈ ((View.whole main_v7_1).slice (win0_7.rect (pt0 24))).set
    rw [View.set_slice_whole]
    exact View.mem_set_unit_zero hz _ i

theorem r0arr_idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem r0_arr8 (c : Dev nD) :
    ((dat0 V c).arrAt 8 cfg0.N : S5000x64.Idx → EReal)
      = k0_pay2 (F := Ideal) (View.ld (acc0 V c 24) rS0_last) (wrB0 V c (pt0 24)) (View.ld (acc0 V c 24) rS0_top) := by
  have hz : (fun a => win0_8.index (pt0 24) a * main_v7_2.ty.shape.size a) = fun _ => 0 := funext fun a => by
    match a with
    | ⟨0, _⟩ => show win0_8.index (pt0 24) (0 : Fin 2) * 5000 = 0; rw [(r0arr_idx8 _).1]
    | ⟨1, _⟩ => show win0_8.index (pt0 24) (1 : Fin 2) * 64 = 0; rw [(r0arr_idx8 _).2]
  refine (dat0 V c).arrAt_eq_of_cover 8 _ (fun t hf => ?_) (fun i => ⟨pt0 24, (flush0_8 _).mpr rfl, ?_⟩)
  · obtain rfl : t = pt0 24 := Fin.ext (by
      have := (flush0_8 t).mp hf; have := t.isLt; have := cfg0_N; show t.val = 24 % 25; omega)
    show (cfg0.win 8).cut (grid0.coords (pt0 24)) ((dat0 V c).after 8 (pt0 24)) = _
    rw [after0_8]
    exact (Memref.read_access_unit_zero (Elt Ideal) main_v7_2 hz (fun a => by rw [congrFun hz a]; simp) _).symm
  · show i ∈ ((View.whole main_v7_2).slice (win0_8.rect (pt0 24))).set
    rw [View.set_slice_whole]
    exact View.mem_set_unit_zero hz _ i

end Cert.KernelIdeal.Val

end
-- ==== Proof.Spec.lean ====
import Idealize.ShloMosaic.PureOps.Ideal
import Mathlib.Algebra.BigOperators.Fin

noncomputable section

namespace Cert.Spec

open Idealize.ShloMosaic

abbrev eps : EReal := Ideal.ofBits .f32 0x2B8CBCCC#32

def invs (H : Fin 10000 → Fin 5000 → EReal) (w : Fin 5000 → EReal) (n : Fin 10000) : EReal :=
  Ideal.rsqrt ((∑ j, H n j * w j) + eps)

def colSum (H : Fin 10000 → Fin 5000 → EReal) (j : Fin 5000) : EReal := ∑ n, H n j

def escale (H : Fin 10000 → Fin 5000 → EReal) (w : Fin 5000 → EReal) (j : Fin 5000) : EReal :=
  Ideal.div (w j) (colSum H j + eps)

def escaleRef (H : Fin 10000 → Fin 5000 → EReal) (w : Fin 5000 → EReal) (j : Fin 5000) : EReal :=
  w j * Ideal.div 1 (colSum H j + eps)

def lin {N K O : ℕ} (X : Fin N → Fin K → EReal) (W : Fin K → Fin O → EReal) (b : Fin O → EReal) (n : Fin N) (o : Fin O) : EReal :=
  (∑ k, X n k * W k o) + b o

def scaled {N K : ℕ} (X : Fin N → Fin K → EReal) (d : Fin N → EReal) (n : Fin N) (k : Fin K) : EReal := X n k * d n

def gather (X : Fin 10000 → Fin 64 → EReal) (H : Fin 10000 → Fin 5000 → EReal) (k : Fin 64) (j : Fin 5000) : EReal :=
  ∑ n, X n k * H n j

def edge (X : Fin 10000 → Fin 64 → EReal) (H : Fin 10000 → Fin 5000 → EReal) (s : Fin 5000 → EReal) (j : Fin 5000) (k : Fin 64) : EReal :=
  gather X H k j * s j

def scatter (E : Fin 5000 → Fin 64 → EReal) (H : Fin 10000 → Fin 5000 → EReal) (d : Fin 10000 → EReal) (n : Fin 10000) (k : Fin 64) : EReal :=
  (∑ j, H n j * E j k) * d n

def relu (a : EReal) : EReal := max a 0

def convRelu (X : Fin 10000 → Fin 64 → EReal) (H : Fin 10000 → Fin 5000 → EReal) (d : Fin 10000 → EReal) (s : Fin 5000 → EReal)
    (n : Fin 10000) (k : Fin 64) : EReal :=
  relu (scatter (edge (scaled X d) H s) H d n k)

def outWith (x : Fin 10000 → Fin 128 → EReal) (H : Fin 10000 → Fin 5000 → EReal) (d : Fin 10000 → EReal) (s : Fin 5000 → EReal)
    (W1 : Fin 128 → Fin 64 → EReal) (b1 : Fin 64 → EReal) (W2 : Fin 64 → Fin 64 → EReal) (b2 : Fin 64 → EReal)
    (Wh : Fin 64 → Fin 64 → EReal) (bh : Fin 64 → EReal) : Fin 10000 → Fin 64 → EReal :=
  lin (convRelu (lin (convRelu (lin x W1 b1) H d s) W2 b2) H d s) Wh bh

def out (x : Fin 10000 → Fin 128 → EReal) (H : Fin 10000 → Fin 5000 → EReal) (w : Fin 5000 → EReal)
    (W1 : Fin 128 → Fin 64 → EReal) (b1 : Fin 64 → EReal) (W2 : Fin 64 → Fin 64 → EReal) (b2 : Fin 64 → EReal)
    (Wh : Fin 64 → Fin 64 → EReal) (bh : Fin 64 → EReal) : Fin 10000 → Fin 64 → EReal :=
  outWith x H (invs H w) (escale H w) W1 b1 W2 b2 Wh bh

theorem div_eq_mul_div_one (w y : EReal) (hy : y ≠ 0) : Ideal.div w y = w * Ideal.div 1 y := by
  simp only [Ideal.div, if_neg hy, one_mul]

theorem escaleRef_eq (H : Fin 10000 → Fin 5000 → EReal) (w : Fin 5000 → EReal) (h : ∀ j, colSum H j + eps ≠ 0) :
    escaleRef H w = escale H w := by
  funext j; unfold escaleRef escale; exact (div_eq_mul_div_one _ _ (h j)).symm

end Cert.Spec

end
-- ==== Proof.KI.PayEmit.lean ====
import proofs.«106240_g40587440947828_cont_8to1_b_222_22_alg».proof.Proof.Gen.KernelIdeal.Skeleton
import proofs.«106240_g40587440947828_cont_8to1_b_222_22_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.Spec

theorem k0_pay1_apply (v34 v35 : Vec Ideal S1x5000 .f32) (j : Fin 5000) :
    k0_pay1 (F := Ideal) v34 v35 (ix2 0 j) = Ideal.div (v35 (ix2 0 j)) (v34 (ix2 0 j) + Cert.Spec.eps) := by
  unfold k0_pay1
  rw [shapeCast_self]
  rfl

theorem k0_pay2_apply (v34 v35 : Vec Ideal S1x5000 .f32) (v41 : Vec Ideal S64x5000 .f32) (j : Fin 5000) (k : Fin 64) :
    k0_pay2 (F := Ideal) v34 v35 v41 (ix2 j k) = v41 (ix2 k j) * Ideal.div (v35 (ix2 0 j)) (v34 (ix2 0 j) + Cert.Spec.eps) := by
  unfold k0_pay2
  rw [truncf_apply, transpose_ix2_apply, mulf_apply, broadcastTo_1b_ab_apply, k0_pay1_apply]

end Cert.KernelIdeal.Val

end
-- ==== Proof.LibPlain.lean ====
import Idealize.ShloMosaic.Lib.ValueIdx
import Idealize.ShloMosaic.Lib.ValueLayout
import Idealize.ShloMosaic.PureOps.Ideal.Laws

noncomputable section

namespace Idealize.ShloMosaic

open Idealize.ShloMosaic.ValueIdx

section Plain

variable {M K N : ℕ} (wf : DotDims.WF ⟨2, ![M, K]⟩ ⟨2, ![K, N]⟩ ⟨2, ![M, N]⟩ [1] [0] [0] [1] [] [])

/-- The dimension numbers of an M × K by K × N product. -/
abbrev plainDims : DotDims ⟨2, ![M, K]⟩ ⟨2, ![K, N]⟩ ⟨2, ![M, N]⟩ := ⟨[1], [0], [0], [1], [], [], wf⟩

theorem plain_lhs_0 (i : (⟨2, ![M, N]⟩ : Shape).Idx) (q : (plainDims wf).contr.Idx) : ((plainDims wf).lhsIdx i q 0).val = (i 0).val := by
  unfold DotDims.lhsIdx
  rw [dif_neg (show ¬(0 : Fin 2) ∈ (plainDims wf).lhsBatch from List.not_mem_nil),
    dif_pos (show (0 : Fin 2) ∈ (plainDims wf).lhsNonContracting from List.mem_singleton.mpr rfl)]
  rfl
theorem plain_rhs_1 (i : (⟨2, ![M, N]⟩ : Shape).Idx) (q : (plainDims wf).contr.Idx) : ((plainDims wf).rhsIdx i q 1).val = (i 1).val := by
  unfold DotDims.rhsIdx
  rw [dif_neg (show ¬(1 : Fin 2) ∈ (plainDims wf).rhsBatch from List.not_mem_nil),
    dif_pos (show (1 : Fin 2) ∈ (plainDims wf).rhsNonContracting from List.mem_singleton.mpr rfl)]
  rfl

end Plain

/-- An M × K by K × N product into a zero accumulator, at entry (p, q): the row's product with the column. -/
theorem matmul_plain_apply {M K N : ℕ} {φ₁ φ₂ : FTy} (D : DotDims ⟨2, ![M, K]⟩ ⟨2, ![K, N]⟩ ⟨2, ![M, N]⟩)
    (hD : D.lhsContracting = [1] ∧ D.rhsContracting = [0] ∧ D.lhsNonContracting = [0] ∧ D.rhsNonContracting = [1]
      ∧ D.lhsBatch = [] ∧ D.rhsBatch = [])
    (a : FVec Ideal ⟨2, ![M, K]⟩ φ₁) (b : FVec Ideal ⟨2, ![K, N]⟩ φ₂) (p : Fin M) (q : Fin N) :
    matmul D none a b (constant (F := Ideal) ⟨2, ![M, N]⟩ .f32 0x00000000#32) (ix2 p q) = ∑ m : Fin K, a (ix2 p m) * b (ix2 m q) := by
  obtain ⟨lc, rc, ln, rn, lb, rb, wf⟩ := D
  obtain ⟨rfl, rfl, rfl, rfl, rfl, rfl⟩ := hD
  refine (Ideal.matmul_constant_zero_apply (plainDims wf) none a b (ix2 p q)).trans ?_
  rw [← Equiv.sum_comp (contrEquiv1 (plainDims wf) K rfl rfl).symm]
  refine Finset.sum_congr rfl fun k _ => ?_
  have hk := contrEquiv1_symm_val (plainDims wf) K rfl rfl k
  refine congrArg₂ (fun x y => a x * b y) (funext fun ax => Fin.ext ?_) (funext fun ax => Fin.ext ?_)
  · match ax with
    | ⟨0, _⟩ => exact plain_lhs_0 wf _ _
    | ⟨1, _⟩ => exact ((plainDims wf).lhsIdx_val_of_single rfl _ _).trans hk
  · match ax with
    | ⟨0, _⟩ => exact ((plainDims wf).rhsIdx_val_of_single rfl _ _).trans hk
    | ⟨1, _⟩ => exact plain_rhs_1 wf _ _

/-- A one-column array broadcast over many columns reads, at (p, q), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic

end
-- ==== Proof.Readings.lean ====
import Idealize.ShloMosaic.PureOps.Ideal
import Idealize.ShloMosaic.Lib.ValueIdx

noncomputable section

namespace Cert.Spec

open Idealize.ShloMosaic Idealize.ShloMosaic.ValueIdx

def rd2 {a b : ℕ} (f : (⟨2, ![a, b]⟩ : Shape).Idx → EReal) (i : Fin a) (j : Fin b) : EReal := f (ix2 i j)

def rdRow {b : ℕ} (f : (⟨2, ![1, b]⟩ : Shape).Idx → EReal) (j : Fin b) : EReal := f (ix2 0 j)

def rdCol {a : ℕ} (f : (⟨2, ![a, 1]⟩ : Shape).Idx → EReal) (i : Fin a) : EReal := f (ix2 i 0)

def rd1 {a : ℕ} (f : (⟨1, ![a]⟩ : Shape).Idx → EReal) (i : Fin a) : EReal := f (ix1 i)

theorem ext_rd2 {a b : ℕ} {f g : (⟨2, ![a, b]⟩ : Shape).Idx → EReal} (h : rd2 f = rd2 g) : f = g := by
  funext i; rw [eq_ix2 i]; exact congrFun (congrFun h (i 0)) (i 1)

end Cert.Spec

end
-- ==== Proof.SumBlocks.lean ====
import Mathlib.Algebra.BigOperators.Fin
import Mathlib.Data.Fintype.BigOperators
import Mathlib.Data.EReal.Basic

noncomputable section

namespace Cert.Spec

def rowOf (s : Fin 25) (r : Fin 400) : Fin 10000 := ⟨400 * s.val + r.val, by omega⟩

def blockRowEquiv : Fin 25 × Fin 400 ≃ Fin 10000 where
  toFun p := rowOf p.1 p.2
  invFun n := (⟨n.val / 400, by omega⟩, ⟨n.val % 400, by omega⟩)
  left_inv := by
    rintro ⟨⟨s, hs⟩, ⟨r, hr⟩⟩
    simp only [rowOf, Prod.mk.injEq, Fin.mk.injEq]
    omega
  right_inv := by
    rintro ⟨n, hn⟩
    simp only [rowOf, Fin.mk.injEq]
    omega

theorem sum_rowOf (f : Fin 10000 → EReal) : ∑ n, f n = ∑ s : Fin 25, ∑ r : Fin 400, f (rowOf s r) := by
  calc ∑ n, f n = ∑ p : Fin 25 × Fin 400, f (rowOf p.1 p.2) :=
        (Fintype.sum_equiv blockRowEquiv _ _ (fun _ => rfl)).symm
    _ = ∑ s : Fin 25, ∑ r : Fin 400, f (rowOf s r) :=
        Fintype.sum_prod_type' (fun s r => f (rowOf s r))

def accSum (g : ℕ → EReal) : ℕ → EReal
  | 0 => 0 + g 0
  | n + 1 => accSum g n + g (n + 1)

theorem accSum_eq_sum (g : ℕ → EReal) : ∀ n : ℕ, accSum g n = ∑ s : Fin (n + 1), g s.val
  | 0 => by simp [accSum]
  | n + 1 => by
    rw [accSum, accSum_eq_sum g n, Fin.sum_univ_castSucc (n := n + 1)]
    simp only [Fin.coe_castSucc, Fin.val_last]

theorem accSum_eq (g : ℕ → EReal) : accSum g 24 = ∑ s : Fin 25, g s.val :=
  accSum_eq_sum g 24

end Cert.Spec

end
-- ==== Proof.KI.R0ValAcc.lean ====
import proofs.«106240_g40587440947828_cont_8to1_b_222_22_alg».proof.Proof.KI.R0Dat
import proofs.«106240_g40587440947828_cont_8to1_b_222_22_alg».proof.Proof.LibPlain
import proofs.«106240_g40587440947828_cont_8to1_b_222_22_alg».proof.Proof.Spec
import proofs.«106240_g40587440947828_cont_8to1_b_222_22_alg».proof.Proof.Readings
import proofs.«106240_g40587440947828_cont_8to1_b_222_22_alg».proof.Proof.SumBlocks
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Val.R0Acc

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

theorem mmDeg_apply (a : FVec Ideal S400x5000 .bf16) (b : FVec Ideal S5000x1 .bf16) (p : Fin 400) (q : Fin 1) :
    matmul dot_S400x5000_S5000x1_S400x1_1_0_0_1_n_n none a b (constant (F := Ideal) S400x1 .f32 0x00000000#32) (ix2 p q)
      = ∑ m : Fin 5000, a (ix2 p m) * b (ix2 m q) :=
  matmul_plain_apply _ ⟨rfl, rfl, rfl, rfl, rfl, rfl⟩ a b p q

theorem mmLin_apply (a : FVec Ideal S400x128 .f32) (b : FVec Ideal S128x64 .f32) (p : Fin 400) (q : Fin 64) :
    matmul dot_S400x128_S128x64_S400x64_1_0_0_1_n_n none a b (constant (F := Ideal) S400x64 .f32 0x00000000#32) (ix2 p q)
      = ∑ m : Fin 128, a (ix2 p m) * b (ix2 m q) :=
  matmul_plain_apply _ ⟨rfl, rfl, rfl, rfl, rfl, rfl⟩ a b p q

theorem mmGat_apply (a : FVec Ideal S65x400 .bf16) (b : FVec Ideal S400x5000 .bf16) (p : Fin 65) (q : Fin 5000) :
    matmul dot_S65x400_S400x5000_S65x5000_1_0_0_1_n_n none a b (constant (F := Ideal) S65x5000 .f32 0x00000000#32) (ix2 p q)
      = ∑ m : Fin 400, a (ix2 p m) * b (ix2 m q) :=
  matmul_plain_apply _ ⟨rfl, rfl, rfl, rfl, rfl, rfl⟩ a b p q

theorem pay4_apply (v0 : FVec Ideal S400x5000 .bf16) (v2 : FVec Ideal S5000x1 .bf16) (r : Fin 400) (z : Fin 1) :
    k0_pay4 (F := Ideal) v0 v2 (ix2 r z) = Ideal.rsqrt ((∑ j : Fin 5000, v0 (ix2 r j) * v2 (ix2 j z)) + eps) := by
  unfold k0_pay4 k0_pay3
  simp only [shapeCast_self]
  show Ideal.rsqrt (matmul dot_S400x5000_S5000x1_S400x1_1_0_0_1_n_n none v0 v2 (constant (F := Ideal) S400x1 .f32 0x00000000#32) (ix2 r z) + eps) = _
  rw [mmDeg_apply]

theorem pay5_apply (i : S65x5000.Idx) : k0_pay5 (F := Ideal) i = 0 := by
  unfold k0_pay5
  simp only [shapeCast_self]
  show Ideal.ofBits .f32 0x00000000#32 = 0
  exact Ideal.ofBits_zero_f32

def featB (v0 : FVec Ideal S400x5000 .bf16) (v2 : FVec Ideal S5000x1 .bf16) (v9 : FVec Ideal S400x128 .f32) (v10 : FVec Ideal S128x64 .f32)
    (v12 : FVec Ideal S1x64 .f32) (r : Fin 400) (k : Fin 64) : EReal :=
  ((∑ m : Fin 128, v9 (ix2 r m) * v10 (ix2 m k)) + v12 (ix2 0 k)) * k0_pay4 (F := Ideal) v0 v2 (ix2 r 0)

def lhsB (v0 : FVec Ideal S400x5000 .bf16) (v2 : FVec Ideal S5000x1 .bf16) (v9 : FVec Ideal S400x128 .f32) (v10 : FVec Ideal S128x64 .f32)
    (v12 : FVec Ideal S1x64 .f32) : FVec Ideal S65x400 .bf16 :=
  concatenate S65x400 0 [⟨S64x400, transpose S64x400 [1, 0] (truncf .bf16 (mulf (addf (matmul dot_S400x128_S128x64_S400x64_1_0_0_1_n_n none v9 v10 (constant (F := Ideal) S400x64 .f32 0x00000000#32)) (broadcastTo S400x64 (shapeCast S1x64 v12 shapeCasts_S1x64_S1x64) broadcasts_S1x64_S400x64)) (broadcastTo S400x64 (k0_pay4 (F := Ideal) v0 v2) broadcasts_S400x1_S400x64)) bitsLt_bf16_f32) transposes_S400x64_p1_0_S64x400⟩, ⟨S1x400, broadcast S1x400 (Scalar.ofBits (F := Ideal) .bf16 0x3F80#16)⟩] concatenates_S64x400_S1x400_S65x400_d0

theorem pay6_eq (v0 : FVec Ideal S400x5000 .bf16) (v2 : FVec Ideal S5000x1 .bf16) (v9 : FVec Ideal S400x128 .f32) (v10 : FVec Ideal S128x64 .f32)
    (v12 : FVec Ideal S1x64 .f32) (v25 : FVec Ideal S65x5000 .f32) :
    k0_pay6 (F := Ideal) v0 v2 v9 v10 v12 v25 = addf v25 (matmul dot_S65x400_S400x5000_S65x5000_1_0_0_1_n_n none (lhsB v0 v2 v9 v10 v12) v0 (constant (F := Ideal) S65x5000 .f32 0x00000000#32)) := by
  unfold k0_pay6 k0_pay3 lhsB
  simp only [shapeCast_self]

theorem lhsB_top (v0 : FVec Ideal S400x5000 .bf16) (v2 : FVec Ideal S5000x1 .bf16) (v9 : FVec Ideal S400x128 .f32) (v10 : FVec Ideal S128x64 .f32)
    (v12 : FVec Ideal S1x64 .f32) (k : Fin 64) (r : Fin 400) :
    lhsB v0 v2 v9 v10 v12 (ix2 (⟨k.val, by omega⟩ : Fin 65) r) = featB v0 v2 v9 v10 v12 r k := by
  unfold lhsB
  rw [concatenate_pair_apply_left (t := S65x400) (s₁ := S64x400) (s₂ := S1x400) (0 : Fin 2) _ _ concatenates_S64x400_S1x400_S65x400_d0 (ix2 (⟨k.val, by omega⟩ : Fin 65) r) rfl (ix2 k r)
    (fun b => match b with | ⟨0, _⟩ => rfl | ⟨1, _⟩ => rfl)]
  rw [transpose_ix2_apply, truncf_apply, mulf_apply, addf_apply, mmLin_apply, broadcastTo_1b_ab_apply, broadcastTo_a1_ab_apply, shapeCast_self]
  rfl

theorem lhsB_last (v0 : FVec Ideal S400x5000 .bf16) (v2 : FVec Ideal S5000x1 .bf16) (v9 : FVec Ideal S400x128 .f32) (v10 : FVec Ideal S128x64 .f32)
    (v12 : FVec Ideal S1x64 .f32) (r : Fin 400) :
    lhsB v0 v2 v9 v10 v12 (ix2 (64 : Fin 65) r) = 1 := by
  unfold lhsB
  rw [concatenate_pair_apply_right (t := S65x400) (s₁ := S64x400) (s₂ := S1x400) (0 : Fin 2) _ _ concatenates_S64x400_S1x400_S65x400_d0 (ix2 (64 : Fin 65) r) rfl rfl (ix2 (0 : Fin 1) r)
    (fun b hb => match b, hb with | ⟨0, _⟩, hb => absurd rfl hb | ⟨1, _⟩, _ => rfl) rfl]
  show Ideal.ofBits .bf16 0x3F80#16 = 1
  exact Ideal.ofBits_one_bf16

theorem pay6_apply (v0 : FVec Ideal S400x5000 .bf16) (v2 : FVec Ideal S5000x1 .bf16) (v9 : FVec Ideal S400x128 .f32) (v10 : FVec Ideal S128x64 .f32)
    (v12 : FVec Ideal S1x64 .f32) (v25 : FVec Ideal S65x5000 .f32) (k : Fin 65) (j : Fin 5000) :
    k0_pay6 (F := Ideal) v0 v2 v9 v10 v12 v25 (ix2 k j) = v25 (ix2 k j) + ∑ r : Fin 400, lhsB v0 v2 v9 v10 v12 (ix2 k r) * v0 (ix2 r j) := by
  rw [pay6_eq, addf_apply, mmGat_apply]

variable (V : (c : Dev nD) → (b : Ref sig .tc) → Buf (Elt Ideal) ((c : Thread nD τ).loc b))

def rowT (t : Fin cfg0.N) (r : Fin 400) : Fin 10000 := ⟨400 * t.val + r.val, by have := cfg0_N; have := t.isLt; omega⟩

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem hB0_apply (c : Dev nD) (t : Fin cfg0.N) (r : Fin 400) (j : Fin 5000) :
    hB0 V c t (ix2 r j) = V c main_v0 (ix2 (rowT t r) j) := by
  show V c main_v0 (((cfg0.win 1).blk t).view.emb (ix2 r j)) = _
  obtain ⟨-, -, e0, e1, -⟩ := idx_facts0 t
  refine congrArg _ (funext fun a => Fin.ext ?_)
  match a with
  | ⟨0, _⟩ => show win0_1.index t (0 : Fin 2) * 400 + 1 * r.val = 400 * t.val + r.val; omega
  | ⟨1, _⟩ => show win0_1.index t (1 : Fin 2) * 5000 + 1 * j.val = j.val; omega

theorem xB0_apply (c : Dev nD) (t : Fin cfg0.N) (r : Fin 400) (m : Fin 128) :
    xB0 V c t (ix2 r m) = V c main_arg0 (ix2 (rowT t r) m) := by
  show V c main_arg0 (((cfg0.win 0).blk t).view.emb (ix2 r m)) = _
  obtain ⟨e0, e1, -⟩ := idx_facts0 t
  refine congrArg _ (funext fun a => Fin.ext ?_)
  match a with
  | ⟨0, _⟩ => show win0_0.index t (0 : Fin 2) * 400 + 1 * r.val = 400 * t.val + r.val; omega
  | ⟨1, _⟩ => show win0_0.index t (1 : Fin 2) * 128 + 1 * m.val = m.val; omega

theorem wcB0_apply (c : Dev nD) (t : Fin cfg0.N) (j : Fin 5000) (z : Fin 1) :
    wcB0 V c t (ix2 j z) = V c main_v2 (ix2 j z) := by
  show V c main_v2 (((cfg0.win 2).blk t).view.emb (ix2 j z)) = _
  obtain ⟨-, -, -, -, e0, e1, -⟩ := idx_facts0 t
  refine congrArg _ (funext fun a => Fin.ext ?_)
  match a with
  | ⟨0, _⟩ => show win0_2.index t (0 : Fin 2) * 5000 + 1 * j.val = j.val; omega
  | ⟨1, _⟩ => show win0_2.index t (1 : Fin 2) * 1 + 1 * z.val = z.val; omega

theorem wrB0_apply (c : Dev nD) (t : Fin cfg0.N) (z : Fin 1) (j : Fin 5000) :
    wrB0 V c t (ix2 z j) = V c main_v3 (ix2 z j) := by
  show V c main_v3 (((cfg0.win 3).blk t).view.emb (ix2 z j)) = _
  obtain ⟨-, -, -, -, -, -, e0, e1, -⟩ := idx_facts0 t
  refine congrArg _ (funext fun a => Fin.ext ?_)
  match a with
  | ⟨0, _⟩ => show win0_3.index t (0 : Fin 2) * 1 + 1 * z.val = z.val; omega
  | ⟨1, _⟩ => show win0_3.index t (1 : Fin 2) * 5000 + 1 * j.val = j.val; omega

theorem w1B0_apply (c : Dev nD) (t : Fin cfg0.N) (m : Fin 128) (k : Fin 64) :
    w1B0 V c t (ix2 m k) = V c main_arg3 (ix2 m k) := by
  show V c main_arg3 (((cfg0.win 4).blk t).view.emb (ix2 m k)) = _
  obtain ⟨-, -, -, -, -, -, -, -, e0, e1, -⟩ := idx_facts0 t
  refine congrArg _ (funext fun a => Fin.ext ?_)
  match a with
  | ⟨0, _⟩ => show win0_4.index t (0 : Fin 2) * 128 + 1 * m.val = m.val; omega
  | ⟨1, _⟩ => show win0_4.index t (1 : Fin 2) * 64 + 1 * k.val = k.val; omega

theorem b1B0_apply (c : Dev nD) (t : Fin cfg0.N) (z : Fin 1) (k : Fin 64) :
    b1B0 V c t (ix2 z k) = V c main_v4 (ix2 z k) := by
  show V c main_v4 (((cfg0.win 5).blk t).view.emb (ix2 z k)) = _
  obtain ⟨-, -, -, -, -, -, -, -, -, -, e0, e1, -⟩ := idx_facts0 t
  refine congrArg _ (funext fun a => Fin.ext ?_)
  match a with
  | ⟨0, _⟩ => show win0_5.index t (0 : Fin 2) * 1 + 1 * z.val = z.val; omega
  | ⟨1, _⟩ => show win0_5.index t (1 : Fin 2) * 64 + 1 * k.val = k.val; omega

def feat0 (c : Dev nD) : Fin 10000 → Fin 64 → EReal :=
  scaled (lin (rd2 (V c main_arg0 : S10000x128.Idx → EReal)) (rd2 (V c main_arg3 : S128x64.Idx → EReal)) (rdRow (V c main_v4 : S1x64.Idx → EReal)))
    (invs (rd2 (V c main_v0 : S10000x5000.Idx → EReal)) (rdCol (V c main_v2 : S5000x1.Idx → EReal)))

theorem featB_eq (c : Dev nD) (t : Fin cfg0.N) (r : Fin 400) (k : Fin 64) :
    featB (hB0 V c t) (wcB0 V c t) (xB0 V c t) (w1B0 V c t) (b1B0 V c t) r k = feat0 V c (rowT t r) k := by
  unfold featB feat0 Cert.Spec.scaled Cert.Spec.lin Cert.Spec.invs rd2 rdRow rdCol
  rw [pay4_apply]
  simp only [hB0_apply, xB0_apply, wcB0_apply, w1B0_apply, b1B0_apply]

def gTerm (c : Dev nD) (k : Fin 64) (j : Fin 5000) (s : ℕ) : EReal :=
  ∑ r : Fin 400, feat0 V c (rowT (pt0 s) r) k * rd2 (V c main_v0 : S10000x5000.Idx → EReal) (rowT (pt0 s) r) j

def cTerm (c : Dev nD) (j : Fin 5000) (s : ℕ) : EReal :=
  ∑ r : Fin 400, 1 * rd2 (V c main_v0 : S10000x5000.Idx → EReal) (rowT (pt0 s) r) j

theorem step_top (c : Dev nD) (n : ℕ) (A : FVec Ideal S65x5000 .f32) (k : Fin 64) (j : Fin 5000) :
    k0_pay6 (F := Ideal) (hB0 V c (pt0 n)) (wcB0 V c (pt0 n)) (xB0 V c (pt0 n)) (w1B0 V c (pt0 n)) (b1B0 V c (pt0 n)) A (ix2 (⟨k.val, by omega⟩ : Fin 65) j)
      = A (ix2 (⟨k.val, by omega⟩ : Fin 65) j) + gTerm V c k j n := by
  rw [pay6_apply]
  unfold gTerm
  refine congrArg _ (Finset.sum_congr rfl fun r _ => ?_)
  rw [lhsB_top, featB_eq, hB0_apply]
  rfl

theorem step_last (c : Dev nD) (n : ℕ) (A : FVec Ideal S65x5000 .f32) (j : Fin 5000) :
    k0_pay6 (F := Ideal) (hB0 V c (pt0 n)) (wcB0 V c (pt0 n)) (xB0 V c (pt0 n)) (w1B0 V c (pt0 n)) (b1B0 V c (pt0 n)) A (ix2 (64 : Fin 65) j)
      = A (ix2 (64 : Fin 65) j) + cTerm V c j n := by
  rw [pay6_apply]
  unfold cTerm
  refine congrArg _ (Finset.sum_congr rfl fun r _ => ?_)
  rw [lhsB_last, hB0_apply]
  rfl

theorem acc0_top (c : Dev nD) (k : Fin 64) (j : Fin 5000) :
    ∀ n : ℕ, acc0 V c n (ix2 (⟨k.val, by omega⟩ : Fin 65) j) = accSum (gTerm V c k j) n
  | 0 => by
    show k0_pay6 (F := Ideal) _ _ _ _ _ (k0_pay5 (F := Ideal)) _ = 0 + gTerm V c k j 0
    rw [step_top, pay5_apply]
  | n + 1 => by
    show k0_pay6 (F := Ideal) _ _ _ _ _ (acc0 V c n) _ = accSum (gTerm V c k j) n + gTerm V c k j (n + 1)
    rw [step_top, acc0_top c k j n]

theorem acc0_last (c : Dev nD) (j : Fin 5000) :
    ∀ n : ℕ, acc0 V c n (ix2 (64 : Fin 65) j) = accSum (cTerm V c j) n
  | 0 => by
    show k0_pay6 (F := Ideal) _ _ _ _ _ (k0_pay5 (F := Ideal)) _ = 0 + cTerm V c j 0
    rw [step_last, pay5_apply]
  | n + 1 => by
    show k0_pay6 (F := Ideal) _ _ _ _ _ (acc0 V c n) _ = accSum (cTerm V c j) n + cTerm V c j (n + 1)
    rw [step_last, acc0_last c j n]

theorem rowT_pt0 (s : Fin 25) (r : Fin 400) : rowT (pt0 s.val) r = rowOf s r :=
  Fin.ext (by show 400 * (s.val % 25) + r.val = 400 * s.val + r.val; have := s.isLt; omega)

theorem gTerm_total (c : Dev nD) (k : Fin 64) (j : Fin 5000) :
    accSum (gTerm V c k j) 24 = gather (feat0 V c) (rd2 (V c main_v0 : S10000x5000.Idx → EReal)) k j := by
  rw [accSum_eq]
  unfold gather gTerm
  rw [sum_rowOf (fun n => feat0 V c n k * rd2 (V c main_v0 : S10000x5000.Idx → EReal) n j)]
  refine Finset.sum_congr rfl fun s _ => Finset.sum_congr rfl fun r _ => ?_
  rw [rowT_pt0]

theorem cTerm_total (c : Dev nD) (j : Fin 5000) :
    accSum (cTerm V c j) 24 = colSum (rd2 (V c main_v0 : S10000x5000.Idx → EReal)) j := by
  rw [accSum_eq]
  unfold colSum cTerm
  rw [sum_rowOf (fun n => rd2 (V c main_v0 : S10000x5000.Idx → EReal) n j)]
  refine Finset.sum_congr rfl fun s _ => Finset.sum_congr rfl fun r _ => ?_
  rw [rowT_pt0, one_mul]

theorem ld_last (A : Vec Ideal S65x5000 .f32) (z : Fin 1) (j : Fin 5000) :
    View.ld A rS0_last (ix2 z j) = A (ix2 (64 : Fin 65) j) := by
  show A (rS0_last.idx (ix2 z j)) = _
  refine congrArg A (funext fun a => Fin.ext ?_)
  match a with
  | ⟨0, _⟩ => show 64 + 1 * z.val = 64; have := z.isLt; omega
  | ⟨1, _⟩ => show 0 + 1 * j.val = j.val; omega

theorem ld_top (A : Vec Ideal S65x5000 .f32) (k : Fin 64) (j : Fin 5000) :
    View.ld A rS0_top (ix2 k j) = A (ix2 (⟨k.val, by omega⟩ : Fin 65) j) := by
  show A (rS0_top.idx (ix2 k j)) = _
  refine congrArg A (funext fun a => Fin.ext ?_)
  match a with
  | ⟨0, _⟩ => show 0 + 1 * k.val = k.val; omega
  | ⟨1, _⟩ => show 0 + 1 * j.val = j.val; omega

end Cert.KernelIdeal.Val.R0Acc

end
-- ==== Proof.KI.R0ValIsdv.lean ====
import proofs.«106240_g40587440947828_cont_8to1_b_222_22_alg».proof.Proof.KI.R0ValAcc

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

-- the vertices' inverse square roots as one array: at row n, rsqrt of row n of H against the weights, plus ε
abbrev isdvArr (c : Dev nD) : S10000x1.Idx → EReal := fun i =>
  invs (rd2 (V c main_v0 : S10000x5000.Idx → EReal)) (rdCol (V c main_v2 : S5000x1.Idx → EReal)) (i 0)

theorem isdv_idx : ∀ t : Fin cfg0.N, win0_6.index t (0 : Fin 2) = t.val ∧ win0_6.index t (1 : Fin 2) = 0 :=
  (by decide +kernel : ∀ t : Fin grid0.N, _)

-- block t of window 6 is rows 400 t … 400 t + 399 of that array
theorem isdv_flushed_eq (c : Dev nD) (t : Fin cfg0.N) :
    (dat0 V c).flushed 6 t = ((cfg0.win 6).blk t).view.read (Elt Ideal) (isdvArr V c) := by
  show (cfg0.win 6).cut (grid0.coords t) ((dat0 V c).after 6 t) = _
  rw [after0_6]
  obtain ⟨e60, e61⟩ := isdv_idx t
  funext y
  obtain ⟨r, z, rfl⟩ : ∃ (r : Fin 400) (z : Fin 1), y = ix2 r z := ⟨y 0, y 1, eq_ix2 y⟩
  obtain rfl : z = 0 := Subsingleton.elim _ _
  have he : ((cfg0.win 6).blk t).view.emb (ix2 r 0) = (ix2 (R0Acc.rowT t r) 0 : S10000x1.Idx) := funext fun a => Fin.ext (by
    match a with
    | ⟨0, _⟩ => show win0_6.index t (0 : Fin 2) * 400 + 1 * r.val = 400 * t.val + r.val; omega
    | ⟨1, _⟩ => show win0_6.index t (1 : Fin 2) * 1 + 1 * 0 = 0; omega)
  show k0_pay4 (F := Ideal) (hB0 V c t) (wcB0 V c t) (ix2 r 0) = isdvArr V c (((cfg0.win 6).blk t).view.emb (ix2 r 0))
  rw [R0Acc.pay4_apply, he]
  simp only [R0Acc.hB0_apply, R0Acc.wcB0_apply]
  rfl

theorem isdv_cover (i : S10000x1.Idx) :
    ∃ t : Fin cfg0.N, (cfg0.win 6).flush t = true ∧ i ∈ ((cfg0.win 6).blk t).view.set := by
  have hi0 : (i 0).val < 10000 := (i 0).isLt
  have hi1 : (i 1).val < 1 := (i 1).isLt
  have hq : (i 0).val / 400 < cfg0.N := by rw [cfg0_N]; omega
  refine ⟨⟨(i 0).val / 400, hq⟩, flush0_6 _, ?_⟩
  show i ∈ ((View.whole main_v7_0).slice (win0_6.rect ⟨(i 0).val / 400, hq⟩)).set
  rw [View.set_slice_whole, Rect.mem_set_unit]
  obtain ⟨e60, e61⟩ := isdv_idx ⟨(i 0).val / 400, hq⟩
  intro a
  match a with
  | ⟨0, _⟩ =>
    show win0_6.index ⟨(i 0).val / 400, hq⟩ (0 : Fin 2) * 400 ≤ (i 0).val ∧ (i 0).val < win0_6.index ⟨(i 0).val / 400, hq⟩ (0 : Fin 2) * 400 + 400
    rw [e60]; show (i 0).val / 400 * 400 ≤ (i 0).val ∧ (i 0).val < (i 0).val / 400 * 400 + 400; omega
  | ⟨1, _⟩ =>
    show win0_6.index ⟨(i 0).val / 400, hq⟩ (1 : Fin 2) * 1 ≤ (i 1).val ∧ (i 1).val < win0_6.index ⟨(i 0).val / 400, hq⟩ (1 : Fin 2) * 1 + 1
    rw [e61]; omega

theorem r0_isdv (c : Dev nD) :
    rdCol ((dat0 V c).arrAt 6 cfg0.N : S10000x1.Idx → EReal)
      = invs (rd2 (V c main_v0 : S10000x5000.Idx → EReal)) (rdCol (V c main_v2 : S5000x1.Idx → EReal)) := by
  rw [(dat0 V c).arrAt_eq_of_cover 6 (isdvArr V c) (fun t _ => isdv_flushed_eq V c t) isdv_cover]
  rfl

end Cert.KernelIdeal.Val

end
-- ==== Proof.KI.R0Val.lean ====
import proofs.«106240_g40587440947828_cont_8to1_b_222_22_alg».proof.Proof.KI.R0Arr
import proofs.«106240_g40587440947828_cont_8to1_b_222_22_alg».proof.Proof.KI.PayEmit
import proofs.«106240_g40587440947828_cont_8to1_b_222_22_alg».proof.Proof.KI.R0ValIsdv

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

theorem r0_srow (c : Dev nD) :
    rdRow ((dat0 V c).arrAt 7 cfg0.N : S1x5000.Idx → EReal)
      = escale (rd2 (V c main_v0 : S10000x5000.Idx → EReal)) (rdRow (V c main_v3 : S1x5000.Idx → EReal)) := by
  funext j
  show ((dat0 V c).arrAt 7 cfg0.N : S1x5000.Idx → EReal) (ix2 0 j) = _
  rw [r0_arr7 V c, k0_pay1_apply, R0Acc.ld_last, R0Acc.acc0_last, R0Acc.cTerm_total, R0Acc.wrB0_apply]
  rfl

theorem r0_e1 (c : Dev nD) :
    rd2 ((dat0 V c).arrAt 8 cfg0.N : S5000x64.Idx → EReal)
      = edge (scaled (lin (rd2 (V c main_arg0 : S10000x128.Idx → EReal)) (rd2 (V c main_arg3 : S128x64.Idx → EReal)) (rdRow (V c main_v4 : S1x64.Idx → EReal)))
            (invs (rd2 (V c main_v0 : S10000x5000.Idx → EReal)) (rdCol (V c main_v2 : S5000x1.Idx → EReal))))
          (rd2 (V c main_v0 : S10000x5000.Idx → EReal))
          (escale (rd2 (V c main_v0 : S10000x5000.Idx → EReal)) (rdRow (V c main_v3 : S1x5000.Idx → EReal))) := by
  funext j k
  show ((dat0 V c).arrAt 8 cfg0.N : S5000x64.Idx → EReal) (ix2 j k) = _
  rw [r0_arr8 V c, k0_pay2_apply, R0Acc.ld_top, R0Acc.ld_last, R0Acc.acc0_top, R0Acc.acc0_last, R0Acc.gTerm_total,
    R0Acc.cTerm_total, R0Acc.wrB0_apply]
  rfl

end Cert.KernelIdeal.Val

end
-- ==== Proof.KI.R1Val.lean ====
import proofs.«106240_g40587440947828_cont_8to1_b_222_22_alg».proof.Proof.KI.R1Dat
import proofs.«106240_g40587440947828_cont_8to1_b_222_22_alg».proof.Proof.LibPlain
import proofs.«106240_g40587440947828_cont_8to1_b_222_22_alg».proof.Proof.Spec
import proofs.«106240_g40587440947828_cont_8to1_b_222_22_alg».proof.Proof.Readings
import proofs.«106240_g40587440947828_cont_8to1_b_222_22_alg».proof.Proof.SumBlocks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

namespace R1

theorem mmHE_apply {φ₁ φ₂ : FTy} (x : FVec Ideal S400x5000 φ₁) (y : FVec Ideal S5000x64 φ₂) (p : Fin 400) (q : Fin 64) :
    matmul dot_S400x5000_S5000x64_S400x64_1_0_0_1_n_n none x y (constant (F := Ideal) S400x64 .f32 0x00000000#32) (ix2 p q)
      = ∑ k : Fin 5000, x (ix2 p k) * y (ix2 k q) :=
  matmul_plain_apply _ ⟨rfl, rfl, rfl, rfl, rfl, rfl⟩ x y p q

theorem mmW_apply {φ₁ φ₂ : FTy} (x : FVec Ideal S400x64 φ₁) (y : FVec Ideal S64x64 φ₂) (p : Fin 400) (q : Fin 64) :
    matmul dot_S400x64_S64x64_S400x64_1_0_0_1_n_n none x y (constant (F := Ideal) S400x64 .f32 0x00000000#32) (ix2 p q)
      = ∑ k : Fin 64, x (ix2 p k) * y (ix2 k q) :=
  matmul_plain_apply _ ⟨rfl, rfl, rfl, rfl, rfl, rfl⟩ x y p q

theorem mmXH_apply {φ₁ φ₂ : FTy} (x : FVec Ideal S64x400 φ₁) (y : FVec Ideal S400x5000 φ₂) (p : Fin 64) (q : Fin 5000) :
    matmul dot_S64x400_S400x5000_S64x5000_1_0_0_1_n_n none x y (constant (F := Ideal) S64x5000 .f32 0x00000000#32) (ix2 p q)
      = ∑ k : Fin 400, x (ix2 p k) * y (ix2 k q) :=
  matmul_plain_apply _ ⟨rfl, rfl, rfl, rfl, rfl, rfl⟩ x y p q

def x12B (H : FVec Ideal S400x5000 .bf16) (d : FVec Ideal S400x1 .f32) (E : FVec Ideal S5000x64 .bf16)
    (W : FVec Ideal S64x64 .f32) (b : FVec Ideal S1x64 .f32) (r : Fin 400) (k : Fin 64) : EReal :=
  ((∑ m : Fin 64, max ((∑ e : Fin 5000, H (ix2 r e) * E (ix2 e m)) * d (ix2 r 0)) 0 * W (ix2 m k)) + b (ix2 0 k)) * d (ix2 r 0)

theorem zero_word : (FloatOps.ofBits .f32 0x00000000#32 : Ideal .f32) = (0 : EReal) := Ideal.ofBits_zero_f32

theorem pay2_apply (H : FVec Ideal S400x5000 .bf16) (d : FVec Ideal S400x1 .f32) (E : FVec Ideal S5000x64 .bf16)
    (W : FVec Ideal S64x64 .f32) (b : FVec Ideal S1x64 .f32) (prev : FVec Ideal S64x5000 .f32) (k : Fin 64) (j : Fin 5000) :
    k1_pay2 H d E W b prev (ix2 k j) = prev (ix2 k j) + ∑ r : Fin 400, x12B H d E W b r k * H (ix2 r j) := by
  unfold k1_pay2
  simp only [shapeCast_self]
  rw [addf_apply, mmXH_apply]
  refine congrArg (prev (ix2 k j) + ·) (Finset.sum_congr rfl fun r _ => ?_)
  rw [transpose_ix2_apply, truncf_apply, mulf_apply, addf_apply, mmW_apply, broadcastTo_1b_ab_apply, broadcastTo_a1_ab_apply]
  simp only [maximumf_apply, mulf_apply, mmHE_apply, broadcastTo_a1_ab_apply, broadcast_apply, zero_word]
  rfl

theorem pay3_apply (A : FVec Ideal S64x5000 .f32) (s : FVec Ideal S1x5000 .f32) (j : Fin 5000) (k : Fin 64) :
    (k1_pay3 (F := Ideal) A s (ix2 j k) : EReal) = (A (ix2 k j) : EReal) * (s (ix2 0 j) : EReal) := by
  unfold k1_pay3
  simp only [shapeCast_self]
  rw [truncf_apply, transpose_ix2_apply, mulf_apply, broadcastTo_1b_ab_apply]

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem hB1_apply (c : Dev nD) (t : Fin cfg1.N) (s : Fin 25) (hs : s.val = t.val) (r : Fin 400) (j : Fin 5000) :
    hB1 V c t (ix2 r j) = rd2 (V c main_v0 : S10000x5000.Idx → EReal) (rowOf s r) j := by
  obtain ⟨e0, e1, -⟩ := idx_facts1 t
  unfold rd2
  show V c main_v0 (((cfg1.win 0).blk t).view.emb (ix2 r j)) = _
  refine congrArg _ (funext fun a => Fin.ext ?_)
  match a with
  | ⟨0, _⟩ => show win1_0.index t (0 : Fin 2) * 400 + 1 * r.val = 400 * s.val + r.val; omega
  | ⟨1, _⟩ => show win1_0.index t (1 : Fin 2) * 5000 + 1 * j.val = j.val; omega

theorem dB1_apply (c : Dev nD) (t : Fin cfg1.N) (s : Fin 25) (hs : s.val = t.val) (r : Fin 400) :
    dB1 V c t (ix2 r (0 : Fin 1)) = rdCol (V c main_v7_0 : S10000x1.Idx → EReal) (rowOf s r) := by
  obtain ⟨-, -, -, -, e0, e1, -⟩ := idx_facts1 t
  unfold rdCol
  show V c main_v7_0 (((cfg1.win 2).blk t).view.emb (ix2 r (0 : Fin 1))) = _
  refine congrArg _ (funext fun a => Fin.ext ?_)
  match a with
  | ⟨0, _⟩ => show win1_2.index t (0 : Fin 2) * 400 + 1 * r.val = 400 * s.val + r.val; omega
  | ⟨1, _⟩ => show win1_2.index t (1 : Fin 2) * 1 + 1 * (0 : Fin 1).val = (0 : Fin 1).val; omega

theorem eB1_apply (c : Dev nD) (t : Fin cfg1.N) (e : Fin 5000) (m : Fin 64) :
    eB1 V c t (ix2 e m) = rd2 (V c main_v7_2 : S5000x64.Idx → EReal) e m := by
  obtain ⟨-, -, e0, e1, -⟩ := idx_facts1 t
  unfold rd2
  show V c main_v7_2 (((cfg1.win 1).blk t).view.emb (ix2 e m)) = _
  refine congrArg _ (funext fun a => Fin.ext ?_)
  match a with
  | ⟨0, _⟩ => show win1_1.index t (0 : Fin 2) * 5000 + 1 * e.val = e.val; omega
  | ⟨1, _⟩ => show win1_1.index t (1 : Fin 2) * 64 + 1 * m.val = m.val; omega

theorem w2B1_apply (c : Dev nD) (t : Fin cfg1.N) (m : Fin 64) (k : Fin 64) :
    w2B1 V c t (ix2 m k) = rd2 (V c main_arg5 : S64x64.Idx → EReal) m k := by
  obtain ⟨-, -, -, -, -, -, e0, e1, -⟩ := idx_facts1 t
  unfold rd2
  show V c main_arg5 (((cfg1.win 3).blk t).view.emb (ix2 m k)) = _
  refine congrArg _ (funext fun a => Fin.ext ?_)
  match a with
  | ⟨0, _⟩ => show win1_3.index t (0 : Fin 2) * 64 + 1 * m.val = m.val; omega
  | ⟨1, _⟩ => show win1_3.index t (1 : Fin 2) * 64 + 1 * k.val = k.val; omega

theorem b2B1_apply (c : Dev nD) (t : Fin cfg1.N) (k : Fin 64) :
    b2B1 V c t (ix2 (0 : Fin 1) k) = rdRow (V c main_v5 : S1x64.Idx → EReal) k := by
  obtain ⟨-, -, -, -, -, -, -, -, e0, e1, -⟩ := idx_facts1 t
  unfold rdRow
  show V c main_v5 (((cfg1.win 4).blk t).view.emb (ix2 (0 : Fin 1) k)) = _
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 64 + 1 * k.val = k.val; omega

theorem sB1_apply (c : Dev nD) (t : Fin cfg1.N) (j : Fin 5000) :
    sB1 V c t (ix2 (0 : Fin 1) j) = rdRow (V c main_v7_1 : S1x5000.Idx → EReal) j := by
  obtain ⟨-, -, -, -, -, -, -, -, -, -, e0, e1, -⟩ := idx_facts1 t
  unfold rdRow
  show V c main_v7_1 (((cfg1.win 5).blk t).view.emb (ix2 (0 : Fin 1) j)) = _
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 5000 + 1 * j.val = j.val; omega

def X12 (c : Dev nD) : Fin 10000 → Fin 64 → EReal :=
  scaled (lin (fun n k => relu (scatter (rd2 (V c main_v7_2 : S5000x64.Idx → EReal)) (rd2 (V c main_v0 : S10000x5000.Idx → EReal)) (rdCol (V c main_v7_0 : S10000x1.Idx → EReal)) n k))
            (rd2 (V c main_arg5 : S64x64.Idx → EReal)) (rdRow (V c main_v5 : S1x64.Idx → EReal)))
         (rdCol (V c main_v7_0 : S10000x1.Idx → EReal))

theorem x12B_blk (c : Dev nD) (t : Fin cfg1.N) (s : Fin 25) (hs : s.val = t.val) (r : Fin 400) (k : Fin 64) :
    x12B (hB1 V c t) (dB1 V c t) (eB1 V c t) (w2B1 V c t) (b2B1 V c t) r k = X12 V c (rowOf s r) k := by
  unfold x12B X12 scaled lin relu scatter
  simp only [hB1_apply V c t s hs, dB1_apply V c t s hs, eB1_apply, w2B1_apply, b2B1_apply]

def term (c : Dev nD) (k : Fin 64) (j : Fin 5000) (n : ℕ) : EReal :=
  ∑ r : Fin 400, X12 V c (rowOf ⟨n % 25, Nat.mod_lt _ (by decide)⟩ r) k
    * rd2 (V c main_v0 : S10000x5000.Idx → EReal) (rowOf ⟨n % 25, Nat.mod_lt _ (by decide)⟩ r) j

theorem pay1_apply (i : S64x5000.Idx) : (k1_pay1 (F := Ideal) i : EReal) = 0 := by
  unfold k1_pay1
  simp only [shapeCast_self]
  exact zero_word

theorem step (c : Dev nD) (k : Fin 64) (j : Fin 5000) (n : ℕ) (prev : FVec Ideal S64x5000 .f32) :
    k1_pay2 (hB1 V c (pt1 n)) (dB1 V c (pt1 n)) (eB1 V c (pt1 n)) (w2B1 V c (pt1 n)) (b2B1 V c (pt1 n)) prev (ix2 k j)
      = prev (ix2 k j) + term V c k j n := by
  rw [pay2_apply]
  unfold term
  refine congrArg (prev (ix2 k j) + ·) (Finset.sum_congr rfl fun r _ => ?_)
  rw [x12B_blk V c (pt1 n) ⟨n % 25, Nat.mod_lt _ (by decide)⟩ rfl, hB1_apply V c (pt1 n) ⟨n % 25, Nat.mod_lt _ (by decide)⟩ rfl]

theorem acc1_apply (c : Dev nD) (k : Fin 64) (j : Fin 5000) : ∀ n : ℕ, acc1 V c n (ix2 k j) = accSum (term V c k j) n
  | 0 => by
    show (k1_pay2 (F := Ideal) _ _ _ _ _ (k1_pay1 (F := Ideal)) (ix2 k j) : EReal) = 0 + term V c k j 0
    rw [step, pay1_apply]
  | n + 1 => by
    show (k1_pay2 (F := Ideal) _ _ _ _ _ (acc1 V c n) (ix2 k j) : EReal) = accSum (term V c k j) n + term V c k j (n + 1)
    rw [step, acc1_apply c k j n]

def G6 (c : Dev nD) : FVec Ideal S5000x64 .bf16 := k1_pay3 (F := Ideal) (acc1 V c 24) (sB1 V c (pt1 24))

theorem final6 (c : Dev nD) : (dat1 V c).arrAt 6 cfg1.N = G6 V c := by
  obtain ⟨-, -, -, -, -, -, -, -, -, -, -, -, e0, e1⟩ := idx_facts1 (pt1 24)
  have hz : (fun a => win1_6.index (pt1 24) a * main_v8.ty.shape.size a) = fun _ => 0 := funext fun a => by
    match a with
    | ⟨0, _⟩ => show win1_6.index (pt1 24) (0 : Fin 2) * 5000 = 0; omega
    | ⟨1, _⟩ => show win1_6.index (pt1 24) (1 : Fin 2) * 64 = 0; omega
  refine (dat1 V c).arrAt_eq_of_cover 6 _ (fun t hf => ?_) (fun i => ⟨pt1 24, (flush1_6 _).mpr rfl, ?_⟩)
  · obtain rfl : t = pt1 24 := Fin.ext (by
      have := (flush1_6 t).mp hf; have := t.isLt; have := cfg1_N; show t.val = 24 % 25; omega)
    show (cfg1.win 6).cut (grid1.coords (pt1 24)) ((dat1 V c).after 6 (pt1 24)) = _
    rw [after1_6]
    exact (Memref.read_access_unit_zero (Elt Ideal) main_v8 hz (fun a => by rw [congrFun hz a]; simp) (G6 V c)).symm
  · show i ∈ ((View.whole main_v8).slice (win1_6.rect (pt1 24))).set
    rw [View.set_slice_whole]
    exact View.mem_set_unit_zero hz _ i

end R1

variable (V : (c : Dev nD) → (b : Ref sig .tc) → Buf (Elt Ideal) ((c : Thread nD τ).loc b))

theorem r1_e2 (c : Dev nD) :
    rd2 ((dat1 V c).arrAt 6 cfg1.N : S5000x64.Idx → EReal)
      = edge (scaled (lin (fun n k => relu (scatter (rd2 (V c main_v7_2 : S5000x64.Idx → EReal)) (rd2 (V c main_v0 : S10000x5000.Idx → EReal)) (rdCol (V c main_v7_0 : S10000x1.Idx → EReal)) n k))
                  (rd2 (V c main_arg5 : S64x64.Idx → EReal)) (rdRow (V c main_v5 : S1x64.Idx → EReal)))
            (rdCol (V c main_v7_0 : S10000x1.Idx → EReal)))
          (rd2 (V c main_v0 : S10000x5000.Idx → EReal))
          (rdRow (V c main_v7_1 : S1x5000.Idx → EReal)) := by
  funext j k
  show (dat1 V c).arrAt 6 cfg1.N (ix2 j k) = edge (R1.X12 V c) _ _ j k
  rw [R1.final6 V c]
  show (k1_pay3 (F := Ideal) (acc1 V c 24) (sB1 V c (pt1 24)) (ix2 j k) : EReal) = _
  rw [R1.pay3_apply, R1.acc1_apply, accSum_eq, R1.sB1_apply]
  unfold edge gather
  rw [sum_rowOf]
  refine congrArg (· * _) (Finset.sum_congr rfl fun s _ => ?_)
  unfold R1.term
  rw [show (⟨s.val % 25, Nat.mod_lt _ (by decide)⟩ : Fin 25) = s from Fin.ext (Nat.mod_eq_of_lt s.isLt)]

end Cert.KernelIdeal.Val

end
-- ==== Proof.KI.R2Val.lean ====
import proofs.«106240_g40587440947828_cont_8to1_b_222_22_alg».proof.Proof.KI.R2Dat
import proofs.«106240_g40587440947828_cont_8to1_b_222_22_alg».proof.Proof.LibPlain
import proofs.«106240_g40587440947828_cont_8to1_b_222_22_alg».proof.Proof.Spec
import proofs.«106240_g40587440947828_cont_8to1_b_222_22_alg».proof.Proof.Readings
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

theorem mmA_apply (h : FVec Ideal S400x5000 .bf16) (e : FVec Ideal S5000x64 .bf16) (p : Fin 400) (q : Fin 64) :
    matmul dot_S400x5000_S5000x64_S400x64_1_0_0_1_n_n none h e (constant (F := Ideal) S400x64 .f32 0x00000000#32) (ix2 p q)
      = ∑ j : Fin 5000, h (ix2 p j) * e (ix2 j q) :=
  matmul_plain_apply _ ⟨rfl, rfl, rfl, rfl, rfl, rfl⟩ h e p q

theorem mmB_apply (x : FVec Ideal S400x64 .f32) (w : FVec Ideal S64x64 .f32) (p : Fin 400) (q : Fin 64) :
    matmul dot_S400x64_S64x64_S400x64_1_0_0_1_n_n none x w (constant (F := Ideal) S400x64 .f32 0x00000000#32) (ix2 p q)
      = ∑ k : Fin 64, x (ix2 p k) * w (ix2 k q) :=
  matmul_plain_apply _ ⟨rfl, rfl, rfl, rfl, rfl, rfl⟩ x w p q

def pre (h : FVec Ideal S400x5000 .bf16) (e : FVec Ideal S5000x64 .bf16) (d : FVec Ideal S400x1 .f32) (p : Fin 400) (k : Fin 64) : EReal :=
  (∑ j : Fin 5000, h (ix2 p j) * e (ix2 j k)) * d (ix2 p (0 : Fin 1))

theorem pay_apply (h : FVec Ideal S400x5000 .bf16) (e : FVec Ideal S5000x64 .bf16) (d : FVec Ideal S400x1 .f32)
    (wh : FVec Ideal S64x64 .f32) (bh : FVec Ideal S1x64 .f32) (p : Fin 400) (q : Fin 64) :
    k2_pay1 (F := Ideal) h e d wh bh (ix2 p q)
      = (∑ k : Fin 64, max (pre h e d p k) 0 * wh (ix2 k q)) + bh (ix2 (0 : Fin 1) q) := by
  unfold k2_pay1
  simp only [shapeCast_self]
  rw [addf_apply, mmB_apply, broadcastTo_1b_ab_apply]
  refine congrArg (· + bh (ix2 (0 : Fin 1) q)) (Finset.sum_congr rfl fun k _ => ?_)
  rw [maximumf_apply, mulf_apply, mmA_apply, broadcastTo_a1_ab_apply, broadcast_apply]
  show max _ (Ideal.ofBits .f32 0x00000000#32) * _ = _
  rw [Ideal.ofBits_zero_f32]
  rfl

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

def rowAt (t : Fin cfg2.N) (r : Fin 400) : Fin 10000 := ⟨400 * t.val + r.val, by have ht : t.val < 25 := Nat.lt_of_lt_of_eq t.isLt cfg2_N; omega⟩

def G2 (c : Dev nD) : S10000x64.Idx → EReal := fun i =>
  lin (fun n k => relu (scatter (rd2 (V c main_v8 : S5000x64.Idx → EReal)) (rd2 (V c main_v0 : S10000x5000.Idx → EReal)) (rdCol (V c main_v7_0 : S10000x1.Idx → EReal)) n k))
    (rd2 (V c main_arg7 : S64x64.Idx → EReal)) (rdRow (V c main_v6 : S1x64.Idx → EReal)) (i 0) (i 1)

theorem hB_apply (c : Dev nD) (t : Fin cfg2.N) (p : Fin 400) (j : Fin 5000) :
    hB2 V c t (ix2 p j) = (V c main_v0 : S10000x5000.Idx → EReal) (ix2 (rowAt t p) j) := by
  obtain ⟨e00, e01, -⟩ := idx_facts t
  show (V c main_v0 : S10000x5000.Idx → EReal) (((cfg2.win 0).blk t).view.emb (ix2 p j)) = _
  refine congrArg _ (funext fun a => Fin.ext ?_)
  match a with
  | ⟨0, _⟩ => show win2_0.index t (0 : Fin 2) * 400 + 1 * p.val = 400 * t.val + p.val; omega
  | ⟨1, _⟩ => show win2_0.index t (1 : Fin 2) * 5000 + 1 * j.val = j.val; omega

theorem eB_apply (c : Dev nD) (t : Fin cfg2.N) (j : Fin 5000) (k : Fin 64) :
    eB2 V c t (ix2 j k) = (V c main_v8 : S5000x64.Idx → EReal) (ix2 j k) := by
  obtain ⟨-, -, e10, e11, -⟩ := idx_facts t
  show (V c main_v8 : S5000x64.Idx → EReal) (((cfg2.win 1).blk t).view.emb (ix2 j k)) = _
  refine congrArg _ (funext fun a => Fin.ext ?_)
  match a with
  | ⟨0, _⟩ => show win2_1.index t (0 : Fin 2) * 5000 + 1 * j.val = j.val; omega
  | ⟨1, _⟩ => show win2_1.index t (1 : Fin 2) * 64 + 1 * k.val = k.val; omega

theorem dB_apply (c : Dev nD) (t : Fin cfg2.N) (p : Fin 400) :
    dB2 V c t (ix2 p (0 : Fin 1)) = (V c main_v7_0 : S10000x1.Idx → EReal) (ix2 (rowAt t p) (0 : Fin 1)) := by
  obtain ⟨-, -, -, -, e20, e21, -⟩ := idx_facts t
  show (V c main_v7_0 : S10000x1.Idx → EReal) (((cfg2.win 2).blk t).view.emb (ix2 p (0 : Fin 1))) = _
  refine congrArg _ (funext fun a => Fin.ext ?_)
  match a with
  | ⟨0, _⟩ => show win2_2.index t (0 : Fin 2) * 400 + 1 * p.val = 400 * t.val + p.val; omega
  | ⟨1, _⟩ => show win2_2.index t (1 : Fin 2) * 1 + 1 * 0 = 0; omega

theorem whB_apply (c : Dev nD) (t : Fin cfg2.N) (k : Fin 64) (q : Fin 64) :
    whB2 V c t (ix2 k q) = (V c main_arg7 : S64x64.Idx → EReal) (ix2 k q) := by
  obtain ⟨-, -, -, -, -, -, e30, e31, -⟩ := idx_facts t
  show (V c main_arg7 : S64x64.Idx → EReal) (((cfg2.win 3).blk t).view.emb (ix2 k q)) = _
  refine congrArg _ (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

theorem bhB_apply (c : Dev nD) (t : Fin cfg2.N) (q : Fin 64) :
    bhB2 V c t (ix2 (0 : Fin 1) q) = (V c main_v6 : S1x64.Idx → EReal) (ix2 (0 : Fin 1) q) := by
  obtain ⟨-, -, -, -, -, -, -, -, e40, e41, -⟩ := idx_facts t
  show (V c main_v6 : S1x64.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

theorem emb5_eq (t : Fin cfg2.N) (p : Fin 400) (q : Fin 64) :
    ((cfg2.win 5).blk t).view.emb (ix2 p q) = (ix2 (rowAt t p) q : S10000x64.Idx) := by
  obtain ⟨-, -, -, -, -, -, -, -, -, -, e50, e51⟩ := idx_facts t
  refine funext fun a => Fin.ext ?_
  match a with
  | ⟨0, _⟩ => show win2_5.index t (0 : Fin 2) * 400 + 1 * p.val = 400 * t.val + p.val; omega
  | ⟨1, _⟩ => show win2_5.index t (1 : Fin 2) * 64 + 1 * q.val = q.val; omega

theorem flushed5_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  funext j
  obtain ⟨p, q, rfl⟩ : ∃ (p : Fin 400) (q : Fin 64), j = ix2 p q := ⟨j 0, j 1, eq_ix2 j⟩
  show k2_pay1 (F := Ideal) (hB2 V c t) (eB2 V c t) (dB2 V c t) (whB2 V c t) (bhB2 V c t) (ix2 p q)
    = G2 V c (((cfg2.win 5).blk t).view.emb (ix2 p q))
  rw [pay_apply, emb5_eq, bhB_apply]
  show _ = (∑ k : Fin 64, relu (scatter (rd2 (V c main_v8 : S5000x64.Idx → EReal)) (rd2 (V c main_v0 : S10000x5000.Idx → EReal)) (rdCol (V c main_v7_0 : S10000x1.Idx → EReal)) (rowAt t p) k)
      * (V c main_arg7 : S64x64.Idx → EReal) (ix2 k q)) + (V c main_v6 : S1x64.Idx → EReal) (ix2 (0 : Fin 1) q)
  refine congrArg (· + (V c main_v6 : S1x64.Idx → EReal) (ix2 (0 : Fin 1) q)) (Finset.sum_congr rfl fun k _ => ?_)
  rw [whB_apply]
  refine congrArg (fun x => max x 0 * (V c main_arg7 : S64x64.Idx → EReal) (ix2 k q)) ?_
  unfold pre
  rw [dB_apply]
  show _ = (∑ j : Fin 5000, rd2 (V c main_v0 : S10000x5000.Idx → EReal) (rowAt t p) j * rd2 (V c main_v8 : S5000x64.Idx → EReal) j k)
      * rdCol (V c main_v7_0 : S10000x1.Idx → EReal) (rowAt t p)
  refine congrArg (fun x : EReal => x * rdCol (V c main_v7_0 : S10000x1.Idx → EReal) (rowAt t p)) (Finset.sum_congr rfl fun j _ => ?_)
  exact congrArg₂ (fun x y : EReal => x * y) (hB_apply V c t p j) (eB_apply V c t j k)

theorem mem_blk5 (t : Fin cfg2.N) (i : S10000x64.Idx) :
    i ∈ ((cfg2.win 5).blk t).view.set ↔ ∀ a : Fin 2, win2_5.index t a * S400x64.size a ≤ (i a).val ∧ (i a).val < win2_5.index t a * S400x64.size a + S400x64.size a := by
  show i ∈ ((View.whole main_v9).slice (win2_5.rect t)).set ↔ _
  rw [View.set_slice_whole, Rect.mem_set_unit]
  exact Iff.rfl

theorem covered5 (i : S10000x64.Idx) :
    ∃ t : Fin cfg2.N, (cfg2.win 5).flush t = true ∧ i ∈ ((cfg2.win 5).blk t).view.set := by
  have hi0 : (i 0).val < 10000 := (i 0).isLt
  have hi1 : (i 1).val < 64 := (i 1).isLt
  have hN : (i 0).val / 400 < cfg2.N := by rw [cfg2_N]; omega
  refine ⟨⟨(i 0).val / 400, hN⟩, flush2_5 _, ?_⟩
  obtain ⟨-, -, -, -, -, -, -, -, -, -, e50, e51⟩ := idx_facts ⟨(i 0).val / 400, hN⟩
  rw [mem_blk5]
  intro a
  match a with
  | ⟨0, _⟩ =>
    show win2_5.index ⟨(i 0).val / 400, hN⟩ (0 : Fin 2) * 400 ≤ (i 0).val ∧ (i 0).val < win2_5.index ⟨(i 0).val / 400, hN⟩ (0 : Fin 2) * 400 + 400
    rw [e50]; show (i 0).val / 400 * 400 ≤ (i 0).val ∧ (i 0).val < (i 0).val / 400 * 400 + 400; omega
  | ⟨1, _⟩ =>
    show win2_5.index ⟨(i 0).val / 400, hN⟩ (1 : Fin 2) * 64 ≤ (i 1).val ∧ (i 1).val < win2_5.index ⟨(i 0).val / 400, hN⟩ (1 : Fin 2) * 64 + 64
    rw [e51]; omega

theorem r2_y (c : Dev nD) :
    rd2 ((dat2 V c).arrAt 5 cfg2.N : S10000x64.Idx → EReal)
      = lin (fun n k => relu (scatter (rd2 (V c main_v8 : S5000x64.Idx → EReal)) (rd2 (V c main_v0 : S10000x5000.Idx → EReal)) (rdCol (V c main_v7_0 : S10000x1.Idx → EReal)) n k))
          (rd2 (V c main_arg7 : S64x64.Idx → EReal)) (rdRow (V c main_v6 : S1x64.Idx → EReal)) := by
  rw [(dat2 V c).arrAt_eq_of_cover 5 (G2 V c) (fun t _ => flushed5_eq V c t) covered5]
  rfl

end Cert.KernelIdeal.Val

end
-- ==== Proof.KI.HostVal.lean ====
import proofs.«106240_g40587440947828_cont_8to1_b_222_22_alg».proof.Proof.KI.Fold
import proofs.«106240_g40587440947828_cont_8to1_b_222_22_alg».proof.Proof.Spec
import proofs.«106240_g40587440947828_cont_8to1_b_222_22_alg».proof.Proof.Readings
import Idealize.ShloMosaic.Lib.ValueLayout
import Idealize.ShloMosaic.Lib.Pipeline.Value
import Idealize.ShloMosaic.Lib.StableHlo.Run

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand Cert.Spec

variable (m : (ℓ : Loc nD τ sig) → Buf (Elt Ideal) ℓ) (ρ : Dev nD → PrngReg)

-- the host stretch: H recast (the identity over the extended reals), the vectors reshaped to one row or one column
theorem host_H (c : Dev nD) :
    rd2 (V1 m ρ c main_v0 : S10000x5000.Idx → EReal) = rd2 (m ((c : Thread nD τ).loc main_arg1) : S10000x5000.Idx → EReal) := by
  rw [show (V1 m ρ c main_v0 : S10000x5000.Idx → EReal) = (m ((c : Thread nD τ).loc main_arg1) : S10000x5000.Idx → EReal) from by
    show StableHlo.after (hostOps0 (F := Ideal)) (W0 m ρ c) (Proc.devRef .tc main_v0) = _; after_results; rfl]

theorem host_wc (c : Dev nD) :
    rdCol (V1 m ρ c main_v2 : S5000x1.Idx → EReal) = rd1 (m ((c : Thread nD τ).loc main_arg2) : S5000.Idx → EReal) := by
  rw [show (V1 m ρ c main_v2 : S5000x1.Idx → EReal) = shapeCast S5000x1 (m ((c : Thread nD τ).loc main_arg2) : S5000.Idx → EReal) shapeCasts_S5000_S5000x1 from by
    show StableHlo.after (hostOps0 (F := Ideal)) (W0 m ρ c) (Proc.devRef .tc main_v2) = _; after_results; rfl]
  exact funext fun i => shapeCast_apply _ shapeCasts_S5000_S5000x1 (ix2 i 0) (ix1 i) (by
    rw [Shape.rowMajor_val_one, Shape.rowMajor_val_two]
    show i.val = i.val * 1 + 0
    omega)

theorem host_wr (c : Dev nD) :
    rdRow (V1 m ρ c main_v3 : S1x5000.Idx → EReal) = rd1 (m ((c : Thread nD τ).loc main_arg2) : S5000.Idx → EReal) := by
  rw [show (V1 m ρ c main_v3 : S1x5000.Idx → EReal) = shapeCast S1x5000 (m ((c : Thread nD τ).loc main_arg2) : S5000.Idx → EReal) shapeCasts_S5000_S1x5000 from by
    show StableHlo.after (hostOps0 (F := Ideal)) (W0 m ρ c) (Proc.devRef .tc main_v3) = _; after_results; rfl]
  exact funext fun j => shapeCast_a_1a_apply _ shapeCasts_S5000_S1x5000 0 j

theorem host_b1 (c : Dev nD) :
    rdRow (V1 m ρ c main_v4 : S1x64.Idx → EReal) = rd1 (m ((c : Thread nD τ).loc main_arg4) : S64.Idx → EReal) := by
  rw [show (V1 m ρ c main_v4 : S1x64.Idx → EReal) = shapeCast S1x64 (m ((c : Thread nD τ).loc main_arg4) : S64.Idx → EReal) shapeCasts_S64_S1x64 from by
    show StableHlo.after (hostOps0 (F := Ideal)) (W0 m ρ c) (Proc.devRef .tc main_v4) = _; after_results; rfl]
  exact funext fun j => shapeCast_a_1a_apply _ shapeCasts_S64_S1x64 0 j

theorem host_b2 (c : Dev nD) :
    rdRow (V1 m ρ c main_v5 : S1x64.Idx → EReal) = rd1 (m ((c : Thread nD τ).loc main_arg6) : S64.Idx → EReal) := by
  rw [show (V1 m ρ c main_v5 : S1x64.Idx → EReal) = shapeCast S1x64 (m ((c : Thread nD τ).loc main_arg6) : S64.Idx → EReal) shapeCasts_S64_S1x64 from by
    show StableHlo.after (hostOps0 (F := Ideal)) (W0 m ρ c) (Proc.devRef .tc main_v5) = _; after_results; rfl]
  exact funext fun j => shapeCast_a_1a_apply _ shapeCasts_S64_S1x64 0 j

theorem host_bh (c : Dev nD) :
    rdRow (V1 m ρ c main_v6 : S1x64.Idx → EReal) = rd1 (m ((c : Thread nD τ).loc main_arg8) : S64.Idx → EReal) := by
  rw [show (V1 m ρ c main_v6 : S1x64.Idx → EReal) = shapeCast S1x64 (m ((c : Thread nD τ).loc main_arg8) : S64.Idx → EReal) shapeCasts_S64_S1x64 from by
    show StableHlo.after (hostOps0 (F := Ideal)) (W0 m ρ c) (Proc.devRef .tc main_v6) = _; after_results; rfl]
  exact funext fun j => shapeCast_a_1a_apply _ shapeCasts_S64_S1x64 0 j

theorem host_arg0 (c : Dev nD) : V1 m ρ c main_arg0 = m ((c : Thread nD τ).loc main_arg0) := by
  show StableHlo.after (hostOps0 (F := Ideal)) (W0 m ρ c) (Proc.devRef .tc main_arg0) = _; after_results

theorem host_arg3 (c : Dev nD) : V1 m ρ c main_arg3 = m ((c : Thread nD τ).loc main_arg3) := by
  show StableHlo.after (hostOps0 (F := Ideal)) (W0 m ρ c) (Proc.devRef .tc main_arg3) = _; after_results

theorem host_arg5 (c : Dev nD) : V1 m ρ c main_arg5 = m ((c : Thread nD τ).loc main_arg5) := by
  show StableHlo.after (hostOps0 (F := Ideal)) (W0 m ρ c) (Proc.devRef .tc main_arg5) = _; after_results

theorem host_arg7 (c : Dev nD) : V1 m ρ c main_arg7 = m ((c : Thread nD τ).loc main_arg7) := by
  show StableHlo.after (hostOps0 (F := Ideal)) (W0 m ρ c) (Proc.devRef .tc main_arg7) = _; after_results

end Cert.KernelIdeal.Val

end
-- ==== Proof.KI.Compose.lean ====
import proofs.«106240_g40587440947828_cont_8to1_b_222_22_alg».proof.Proof.KI.Fold
import proofs.«106240_g40587440947828_cont_8to1_b_222_22_alg».proof.Proof.KI.R0Val
import proofs.«106240_g40587440947828_cont_8to1_b_222_22_alg».proof.Proof.KI.R1Val
import proofs.«106240_g40587440947828_cont_8to1_b_222_22_alg».proof.Proof.KI.R2Val
import proofs.«106240_g40587440947828_cont_8to1_b_222_22_alg».proof.Proof.KI.HostVal

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand Cert.Spec

variable (m : (ℓ : Loc nD τ sig) → Buf (Elt Ideal) ℓ) (ρ : Dev nD → PrngReg)

namespace Compose

abbrev argX (c : Dev nD) : Fin 10000 → Fin 128 → EReal := rd2 (m ((c : Thread nD τ).loc main_arg0) : S10000x128.Idx → EReal)
abbrev argH (c : Dev nD) : Fin 10000 → Fin 5000 → EReal := rd2 (m ((c : Thread nD τ).loc main_arg1) : S10000x5000.Idx → EReal)
abbrev argW (c : Dev nD) : Fin 5000 → EReal := rd1 (m ((c : Thread nD τ).loc main_arg2) : S5000.Idx → EReal)
abbrev argW1 (c : Dev nD) : Fin 128 → Fin 64 → EReal := rd2 (m ((c : Thread nD τ).loc main_arg3) : S128x64.Idx → EReal)
abbrev argB1 (c : Dev nD) : Fin 64 → EReal := rd1 (m ((c : Thread nD τ).loc main_arg4) : S64.Idx → EReal)
abbrev argW2 (c : Dev nD) : Fin 64 → Fin 64 → EReal := rd2 (m ((c : Thread nD τ).loc main_arg5) : S64x64.Idx → EReal)
abbrev argB2 (c : Dev nD) : Fin 64 → EReal := rd1 (m ((c : Thread nD τ).loc main_arg6) : S64.Idx → EReal)
abbrev argWh (c : Dev nD) : Fin 64 → Fin 64 → EReal := rd2 (m ((c : Thread nD τ).loc main_arg7) : S64x64.Idx → EReal)
abbrev argBh (c : Dev nD) : Fin 64 → EReal := rd1 (m ((c : Thread nD τ).loc main_arg8) : S64.Idx → EReal)

abbrev specD (c : Dev nD) : Fin 10000 → EReal := invs (argH m c) (argW m c)
abbrev specS (c : Dev nD) : Fin 5000 → EReal := escale (argH m c) (argW m c)

abbrev specE1 (c : Dev nD) : Fin 5000 → Fin 64 → EReal :=
  edge (scaled (lin (argX m c) (argW1 m c) (argB1 m c)) (specD m c)) (argH m c) (specS m c)

abbrev specE2 (c : Dev nD) : Fin 5000 → Fin 64 → EReal :=
  edge (scaled (lin (fun n k => relu (scatter (specE1 m c) (argH m c) (specD m c) n k)) (argW2 m c) (argB2 m c)) (specD m c))
    (argH m c) (specS m c)

theorem V2_v0 (c : Dev nD) : (V2 m ρ c main_v0 : S10000x5000.Idx → EReal) = V1 m ρ c main_v0 :=
  (hF0 m ρ c 1).symm.trans (((dat0 (V1 m ρ) c).arrAt_in 1 rfl _).trans (A_eq0 (V1 m ρ) c 1))
theorem V3_v0 (c : Dev nD) : (V3 m ρ c main_v0 : S10000x5000.Idx → EReal) = V1 m ρ c main_v0 :=
  ((hF1 m ρ c 0).symm.trans (((dat1 (V2 m ρ) c).arrAt_in 0 rfl _).trans (A_eq1 (V2 m ρ) c 0))).trans (V2_v0 m ρ c)

theorem V2_v7_0 (c : Dev nD) : (V2 m ρ c main_v7_0 : S10000x1.Idx → EReal) = (dat0 (V1 m ρ) c).arrAt 6 cfg0.N :=
  (hF0 m ρ c 6).symm
theorem V3_v7_0 (c : Dev nD) : (V3 m ρ c main_v7_0 : S10000x1.Idx → EReal) = (dat0 (V1 m ρ) c).arrAt 6 cfg0.N :=
  ((hF1 m ρ c 2).symm.trans (((dat1 (V2 m ρ) c).arrAt_in 2 rfl _).trans (A_eq1 (V2 m ρ) c 2))).trans (V2_v7_0 m ρ c)

theorem V2_v7_1 (c : Dev nD) : (V2 m ρ c main_v7_1 : S1x5000.Idx → EReal) = (dat0 (V1 m ρ) c).arrAt 7 cfg0.N :=
  (hF0 m ρ c 7).symm
theorem V2_v7_2 (c : Dev nD) : (V2 m ρ c main_v7_2 : S5000x64.Idx → EReal) = (dat0 (V1 m ρ) c).arrAt 8 cfg0.N :=
  (hF0 m ρ c 8).symm

theorem V3_v8 (c : Dev nD) : (V3 m ρ c main_v8 : S5000x64.Idx → EReal) = (dat1 (V2 m ρ) c).arrAt 6 cfg1.N :=
  (hF1 m ρ c 6).symm

theorem V2_arg5 (c : Dev nD) : (V2 m ρ c main_arg5 : S64x64.Idx → EReal) = V1 m ρ c main_arg5 :=
  hrest0 m ρ c main_arg5 (by decide)
theorem V2_v5 (c : Dev nD) : (V2 m ρ c main_v5 : S1x64.Idx → EReal) = V1 m ρ c main_v5 :=
  hrest0 m ρ c main_v5 (by decide)

theorem V3_arg7 (c : Dev nD) : (V3 m ρ c main_arg7 : S64x64.Idx → EReal) = V1 m ρ c main_arg7 :=
  (hrest1 m ρ c main_arg7 (by decide)).trans (hrest0 m ρ c main_arg7 (by decide))
theorem V3_v6 (c : Dev nD) : (V3 m ρ c main_v6 : S1x64.Idx → EReal) = V1 m ρ c main_v6 :=
  (hrest1 m ρ c main_v6 (by decide)).trans (hrest0 m ρ c main_v6 (by decide))

theorem rd_V2_H (c : Dev nD) : rd2 (V2 m ρ c main_v0 : S10000x5000.Idx → EReal) = argH m c := by
  rw [V2_v0]; exact host_H m ρ c

theorem rd_V2_d (c : Dev nD) : rdCol (V2 m ρ c main_v7_0 : S10000x1.Idx → EReal) = specD m c := by
  rw [V2_v7_0, r0_isdv, host_H, host_wc]

theorem rd_V2_s (c : Dev nD) : rdRow (V2 m ρ c main_v7_1 : S1x5000.Idx → EReal) = specS m c := by
  rw [V2_v7_1, r0_srow, host_H, host_wr]

theorem rd_V2_e1 (c : Dev nD) : rd2 (V2 m ρ c main_v7_2 : S5000x64.Idx → EReal) = specE1 m c := by
  rw [V2_v7_2, r0_e1, host_H, host_wc, host_wr, host_b1, host_arg0, host_arg3]

theorem rd_V2_W2 (c : Dev nD) : rd2 (V2 m ρ c main_arg5 : S64x64.Idx → EReal) = argW2 m c := by
  rw [V2_arg5, host_arg5]

theorem rd_V2_b2 (c : Dev nD) : rdRow (V2 m ρ c main_v5 : S1x64.Idx → EReal) = argB2 m c := by
  rw [V2_v5]; exact host_b2 m ρ c

theorem rd_V3_H (c : Dev nD) : rd2 (V3 m ρ c main_v0 : S10000x5000.Idx → EReal) = argH m c := by
  rw [V3_v0]; exact host_H m ρ c

theorem rd_V3_d (c : Dev nD) : rdCol (V3 m ρ c main_v7_0 : S10000x1.Idx → EReal) = specD m c := by
  rw [V3_v7_0, r0_isdv, host_H, host_wc]

theorem rd_V3_e2 (c : Dev nD) : rd2 (V3 m ρ c main_v8 : S5000x64.Idx → EReal) = specE2 m c := by
  rw [V3_v8, r1_e2, rd_V2_e1, rd_V2_H, rd_V2_d, rd_V2_s, rd_V2_W2, rd_V2_b2]

theorem rd_V3_Wh (c : Dev nD) : rd2 (V3 m ρ c main_arg7 : S64x64.Idx → EReal) = argWh m c := by
  rw [V3_arg7, host_arg7]

theorem rd_V3_bh (c : Dev nD) : rdRow (V3 m ρ c main_v6 : S1x64.Idx → EReal) = argBh m c := by
  rw [V3_v6]; exact host_bh m ρ c

end Compose

open Compose

theorem kernel_value (c : Dev nD) :
    rd2 (W4 m ρ c (Proc.devRef .tc main_v9) : S10000x64.Idx → EReal)
      = out (rd2 (m ((c : Thread nD τ).loc main_arg0) : S10000x128.Idx → EReal))
          (rd2 (m ((c : Thread nD τ).loc main_arg1) : S10000x5000.Idx → EReal))
          (rd1 (m ((c : Thread nD τ).loc main_arg2) : S5000.Idx → EReal))
          (rd2 (m ((c : Thread nD τ).loc main_arg3) : S128x64.Idx → EReal)) (rd1 (m ((c : Thread nD τ).loc main_arg4) : S64.Idx → EReal))
          (rd2 (m ((c : Thread nD τ).loc main_arg5) : S64x64.Idx → EReal)) (rd1 (m ((c : Thread nD τ).loc main_arg6) : S64.Idx → EReal))
          (rd2 (m ((c : Thread nD τ).loc main_arg7) : S64x64.Idx → EReal)) (rd1 (m ((c : Thread nD τ).loc main_arg8) : S64.Idx → EReal)) := by

  rw [W4_result, r2_y, rd_V3_e2, rd_V3_H, rd_V3_d, rd_V3_Wh, rd_V3_bh]

  unfold out outWith convRelu
  rfl

end Cert.KernelIdeal.Val

end
-- ==== Proof.RefVal.lean ====
import proofs.«106240_g40587440947828_cont_8to1_b_222_22_alg».proof.Proof.Gen.ReferenceIdeal.Read
import proofs.«106240_g40587440947828_cont_8to1_b_222_22_alg».proof.Proof.Spec
import proofs.«106240_g40587440947828_cont_8to1_b_222_22_alg».proof.Proof.Readings
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen Cert.ReferenceIdeal.Read Cert.Spec

local macro "idx2" : tactic => `(tactic| (funext a; match a with | ⟨0, _⟩ => rfl | ⟨1, _⟩ => rfl))

local macro "idx1" : tactic => `(tactic| (funext a; match a with | ⟨0, _⟩ => rfl))

theorem one_f32 : Ideal.ofBits .f32 0x3F800000#32 = 1 := by
  simp [Ideal.ofBits, Ideal.ieee, -EReal.coe_mul]; norm_num

section Stages

variable (x0 : (⟨S10000x128, .f32⟩ : BufTy).Contents (Elt Ideal))
variable (x1 : (⟨S10000x5000, .f32⟩ : BufTy).Contents (Elt Ideal))
variable (x2 : (⟨S5000, .f32⟩ : BufTy).Contents (Elt Ideal))
variable (x3 : (⟨S128x64, .f32⟩ : BufTy).Contents (Elt Ideal))
variable (x4 : (⟨S64, .f32⟩ : BufTy).Contents (Elt Ideal))
variable (x5 : (⟨S64x64, .f32⟩ : BufTy).Contents (Elt Ideal))
variable (x6 : (⟨S64, .f32⟩ : BufTy).Contents (Elt Ideal))
variable (x7 : (⟨S64x64, .f32⟩ : BufTy).Contents (Elt Ideal))
variable (x8 : (⟨S64, .f32⟩ : BufTy).Contents (Elt Ideal))

theorem colsum_v4 (j : Fin 5000) :
    val_main_v4 (F := Ideal) x1 (ix1 j) = ∑ n, x1 (ix2 n j) := by
  rw [val_main_v4_apply, val_main_cst_apply, Ideal.ofBits_def, Ideal.ofBits_zero_f32, zero_add]
  exact Finset.sum_congr rfl fun n _ => congrArg x1 (by idx2)

theorem rowsum_v8 (n : Fin 10000) :
    val_main_v8 (F := Ideal) x1 x2 (ix1 n) = ∑ j, x1 (ix2 n j) * x2 (ix1 j) := by
  rw [val_main_v8_apply, val_main_cst_0_apply, Ideal.ofBits_def, Ideal.ofBits_zero_f32, zero_add]
  refine Finset.sum_congr rfl fun j _ => ?_
  rw [val_main_v7_apply, val_main_v6_apply, val_main_v5_apply, Ideal.mulf_def]
  exact congrArg₂ (· * ·) (congrArg x1 (by idx2)) (congrArg x2 (by idx1))

theorem invs_v11 :
    rd1 (val_main_v11 (F := Ideal) x1 x2 : S10000.Idx → EReal)
      = invs (rd2 (x1 : S10000x5000.Idx → EReal)) (rd1 (x2 : S5000.Idx → EReal)) := by
  funext n
  show val_main_v11 (F := Ideal) x1 x2 (ix1 n) = Ideal.rsqrt ((∑ j, x1 (ix2 n j) * x2 (ix1 j)) + eps)
  rw [val_main_v11_apply, val_main_v10_apply, val_main_v9_apply, val_main_cst_1_apply, rowsum_v8]
  rfl

theorem escale_v21 :
    rd1 (val_main_v21 (F := Ideal) x1 x2 : S5000.Idx → EReal)
      = escaleRef (rd2 (x1 : S10000x5000.Idx → EReal)) (rd1 (x2 : S5000.Idx → EReal)) := by
  funext j
  show val_main_v21 (F := Ideal) x1 x2 (ix1 j) = x2 (ix1 j) * Ideal.div 1 ((∑ n, x1 (ix2 n j)) + eps)
  rw [val_main_v21_apply, val_main_v15_apply, val_main_v14_apply, val_main_cst_3_apply,
    val_main_v13_apply, val_main_v12_apply, val_main_cst_2_apply, colsum_v4]
  simp only [Ideal.mulf_def, Ideal.hostDivf_def, Ideal.addf_def, Ideal.ofBits_def, one_f32]

theorem lin_v3 :
    rd2 (val_main_v3 (F := Ideal) x0 x3 x4 : S10000x64.Idx → EReal)
      = lin (rd2 (x0 : S10000x128.Idx → EReal)) (rd2 (x3 : S128x64.Idx → EReal)) (rd1 (x4 : S64.Idx → EReal)) := by
  funext n o
  show val_main_v3 (F := Ideal) x0 x3 x4 (ix2 n o) = (∑ k, x0 (ix2 n k) * x3 (ix2 k o)) + x4 (ix1 o)
  rw [val_main_v3_apply, val_main_v0_apply, val_main_v2_apply, val_main_v1_apply, Ideal.addf_def]
  exact congrArg₂ (· + ·)
    (Finset.sum_congr rfl fun k _ => congrArg₂ (· * ·) (congrArg x0 (by idx2)) (congrArg x3 (by idx2)))
    (congrArg x4 (by idx1))

theorem scaled_v18 :
    rd2 ((val_main_v18 (F := Ideal) x0 x1 x2 x3 x4) : S10000x64.Idx → EReal)
      = scaled (rd2 ((val_main_v3 (F := Ideal) x0 x3 x4) : S10000x64.Idx → EReal)) (rd1 ((val_main_v11 (F := Ideal) x1 x2) : S10000.Idx → EReal)) := by
  funext n k
  show (val_main_v18 (F := Ideal) x0 x1 x2 x3 x4) (ix2 n k) = (val_main_v3 (F := Ideal) x0 x3 x4) (ix2 n k) * (val_main_v11 (F := Ideal) x1 x2) (ix1 n)
  rw [val_main_v18_apply, val_main_v17_apply, val_main_v16_apply, Ideal.mulf_def]
  exact congrArg (_ * ·) (congrArg (val_main_v11 (F := Ideal) x1 x2) (by idx1))

theorem edge_v24 :
    rd2 ((val_main_v24 (F := Ideal) x0 x1 x2 x3 x4) : S5000x64.Idx → EReal)
      = edge (rd2 ((val_main_v18 (F := Ideal) x0 x1 x2 x3 x4) : S10000x64.Idx → EReal)) (rd2 (x1 : S10000x5000.Idx → EReal)) (rd1 ((val_main_v21 (F := Ideal) x1 x2) : S5000.Idx → EReal)) := by
  funext j k
  show (val_main_v24 (F := Ideal) x0 x1 x2 x3 x4) (ix2 j k) = (∑ n, (val_main_v18 (F := Ideal) x0 x1 x2 x3 x4) (ix2 n k) * x1 (ix2 n j)) * (val_main_v21 (F := Ideal) x1 x2) (ix1 j)
  rw [val_main_v24_apply, val_main_v20_apply, val_main_v23_apply, val_main_v22_apply, Ideal.mulf_def]
  refine congrArg₂ (· * ·) (Finset.sum_congr rfl fun n _ => ?_) (congrArg (val_main_v21 (F := Ideal) x1 x2) (by idx1))
  rw [val_main_v19_apply]
  refine (mul_comm _ _).trans ?_
  exact congrArg₂ (· * ·) (congrArg (val_main_v18 (F := Ideal) x0 x1 x2 x3 x4) (by idx2)) (congrArg x1 (by idx2))

theorem scatter_v28 :
    rd2 ((val_main_v28 (F := Ideal) x0 x1 x2 x3 x4) : S10000x64.Idx → EReal)
      = scatter (rd2 ((val_main_v24 (F := Ideal) x0 x1 x2 x3 x4) : S5000x64.Idx → EReal)) (rd2 (x1 : S10000x5000.Idx → EReal)) (rd1 ((val_main_v11 (F := Ideal) x1 x2) : S10000.Idx → EReal)) := by
  funext n k
  show (val_main_v28 (F := Ideal) x0 x1 x2 x3 x4) (ix2 n k) = (∑ j, x1 (ix2 n j) * (val_main_v24 (F := Ideal) x0 x1 x2 x3 x4) (ix2 j k)) * (val_main_v11 (F := Ideal) x1 x2) (ix1 n)
  rw [val_main_v28_apply, val_main_v25_apply, val_main_v27_apply, val_main_v26_apply, Ideal.mulf_def]
  exact congrArg₂ (· * ·)
    (Finset.sum_congr rfl fun j _ => congrArg₂ (· * ·) (congrArg x1 (by idx2)) (congrArg (val_main_v24 (F := Ideal) x0 x1 x2 x3 x4) (by idx2)))
    (congrArg (val_main_v11 (F := Ideal) x1 x2) (by idx1))

theorem relu_v29 :
    rd2 ((val_main_v29 (F := Ideal) x0 x1 x2 x3 x4) : S10000x64.Idx → EReal)
      = fun n k => relu (rd2 ((val_main_v28 (F := Ideal) x0 x1 x2 x3 x4) : S10000x64.Idx → EReal) n k) := by
  funext n k
  show (val_main_v29 (F := Ideal) x0 x1 x2 x3 x4) (ix2 n k) = max ((val_main_v28 (F := Ideal) x0 x1 x2 x3 x4) (ix2 n k)) 0
  rw [val_main_v29_apply, val_main_call0_v0_apply, val_main_call0_cst_apply, Ideal.maximumf_def, Ideal.ofBits_def,
    Ideal.ofBits_zero_f32]

theorem conv_v29 :
    rd2 ((val_main_v29 (F := Ideal) x0 x1 x2 x3 x4) : S10000x64.Idx → EReal)
      = convRelu (rd2 ((val_main_v3 (F := Ideal) x0 x3 x4) : S10000x64.Idx → EReal)) (rd2 (x1 : S10000x5000.Idx → EReal))
          (rd1 ((val_main_v11 (F := Ideal) x1 x2) : S10000.Idx → EReal)) (rd1 ((val_main_v21 (F := Ideal) x1 x2) : S5000.Idx → EReal)) := by
  rw [relu_v29, scatter_v28, edge_v24, scaled_v18]
  rfl

theorem v41_eq : val_main_v41 (F := Ideal) x1 x2 = val_main_v11 (F := Ideal) x1 x2 := rfl
theorem v51_eq : val_main_v51 (F := Ideal) x1 x2 = val_main_v21 (F := Ideal) x1 x2 := rfl

theorem lin_v33 :
    rd2 (val_main_v33 (F := Ideal) x0 x1 x2 x3 x4 x5 x6 : S10000x64.Idx → EReal)
      = lin (rd2 (val_main_v29 (F := Ideal) x0 x1 x2 x3 x4 : S10000x64.Idx → EReal)) (rd2 (x5 : S64x64.Idx → EReal)) (rd1 (x6 : S64.Idx → EReal)) := by
  funext n o
  show val_main_v33 (F := Ideal) x0 x1 x2 x3 x4 x5 x6 (ix2 n o) = (∑ k, val_main_v29 (F := Ideal) x0 x1 x2 x3 x4 (ix2 n k) * x5 (ix2 k o)) + x6 (ix1 o)
  rw [val_main_v33_apply, val_main_v30_apply, val_main_v32_apply, val_main_v31_apply, Ideal.addf_def]
  exact congrArg₂ (· + ·)
    (Finset.sum_congr rfl fun k _ => congrArg₂ (· * ·) (congrArg (val_main_v29 (F := Ideal) x0 x1 x2 x3 x4) (by idx2)) (congrArg x5 (by idx2)))
    (congrArg x6 (by idx1))

theorem scaled_v48 :
    rd2 ((val_main_v48 (F := Ideal) x0 x1 x2 x3 x4 x5 x6) : S10000x64.Idx → EReal)
      = scaled (rd2 ((val_main_v33 (F := Ideal) x0 x1 x2 x3 x4 x5 x6) : S10000x64.Idx → EReal)) (rd1 ((val_main_v41 (F := Ideal) x1 x2) : S10000.Idx → EReal)) := by
  funext n k
  show (val_main_v48 (F := Ideal) x0 x1 x2 x3 x4 x5 x6) (ix2 n k) = (val_main_v33 (F := Ideal) x0 x1 x2 x3 x4 x5 x6) (ix2 n k) * (val_main_v41 (F := Ideal) x1 x2) (ix1 n)
  rw [val_main_v48_apply, val_main_v47_apply, val_main_v46_apply, Ideal.mulf_def]
  exact congrArg (_ * ·) (congrArg (val_main_v41 (F := Ideal) x1 x2) (by idx1))

theorem edge_v54 :
    rd2 ((val_main_v54 (F := Ideal) x0 x1 x2 x3 x4 x5 x6) : S5000x64.Idx → EReal)
      = edge (rd2 ((val_main_v48 (F := Ideal) x0 x1 x2 x3 x4 x5 x6) : S10000x64.Idx → EReal)) (rd2 (x1 : S10000x5000.Idx → EReal)) (rd1 ((val_main_v51 (F := Ideal) x1 x2) : S5000.Idx → EReal)) := by
  funext j k
  show (val_main_v54 (F := Ideal) x0 x1 x2 x3 x4 x5 x6) (ix2 j k) = (∑ n, (val_main_v48 (F := Ideal) x0 x1 x2 x3 x4 x5 x6) (ix2 n k) * x1 (ix2 n j)) * (val_main_v51 (F := Ideal) x1 x2) (ix1 j)
  rw [val_main_v54_apply, val_main_v50_apply, val_main_v53_apply, val_main_v52_apply, Ideal.mulf_def]
  refine congrArg₂ (· * ·) (Finset.sum_congr rfl fun n _ => ?_) (congrArg (val_main_v51 (F := Ideal) x1 x2) (by idx1))
  rw [val_main_v49_apply]
  refine (mul_comm _ _).trans ?_
  exact congrArg₂ (· * ·) (congrArg (val_main_v48 (F := Ideal) x0 x1 x2 x3 x4 x5 x6) (by idx2)) (congrArg x1 (by idx2))

theorem scatter_v58 :
    rd2 ((val_main_v58 (F := Ideal) x0 x1 x2 x3 x4 x5 x6) : S10000x64.Idx → EReal)
      = scatter (rd2 ((val_main_v54 (F := Ideal) x0 x1 x2 x3 x4 x5 x6) : S5000x64.Idx → EReal)) (rd2 (x1 : S10000x5000.Idx → EReal)) (rd1 ((val_main_v41 (F := Ideal) x1 x2) : S10000.Idx → EReal)) := by
  funext n k
  show (val_main_v58 (F := Ideal) x0 x1 x2 x3 x4 x5 x6) (ix2 n k) = (∑ j, x1 (ix2 n j) * (val_main_v54 (F := Ideal) x0 x1 x2 x3 x4 x5 x6) (ix2 j k)) * (val_main_v41 (F := Ideal) x1 x2) (ix1 n)
  rw [val_main_v58_apply, val_main_v55_apply, val_main_v57_apply, val_main_v56_apply, Ideal.mulf_def]
  exact congrArg₂ (· * ·)
    (Finset.sum_congr rfl fun j _ => congrArg₂ (· * ·) (congrArg x1 (by idx2)) (congrArg (val_main_v54 (F := Ideal) x0 x1 x2 x3 x4 x5 x6) (by idx2)))
    (congrArg (val_main_v41 (F := Ideal) x1 x2) (by idx1))

theorem relu_v59 :
    rd2 ((val_main_v59 (F := Ideal) x0 x1 x2 x3 x4 x5 x6) : S10000x64.Idx → EReal)
      = fun n k => relu (rd2 ((val_main_v58 (F := Ideal) x0 x1 x2 x3 x4 x5 x6) : S10000x64.Idx → EReal) n k) := by
  funext n k
  show (val_main_v59 (F := Ideal) x0 x1 x2 x3 x4 x5 x6) (ix2 n k) = max ((val_main_v58 (F := Ideal) x0 x1 x2 x3 x4 x5 x6) (ix2 n k)) 0
  rw [val_main_v59_apply, val_main_call1_v0_apply, val_main_call1_cst_apply, Ideal.maximumf_def, Ideal.ofBits_def,
    Ideal.ofBits_zero_f32]

theorem conv_v59 :
    rd2 ((val_main_v59 (F := Ideal) x0 x1 x2 x3 x4 x5 x6) : S10000x64.Idx → EReal)
      = convRelu (rd2 ((val_main_v33 (F := Ideal) x0 x1 x2 x3 x4 x5 x6) : S10000x64.Idx → EReal)) (rd2 (x1 : S10000x5000.Idx → EReal))
          (rd1 ((val_main_v41 (F := Ideal) x1 x2) : S10000.Idx → EReal)) (rd1 ((val_main_v51 (F := Ideal) x1 x2) : S5000.Idx → EReal)) := by
  rw [relu_v59, scatter_v58, edge_v54, scaled_v48]
  rfl

theorem lin_v63 :
    rd2 (val_main_v63 (F := Ideal) x0 x1 x2 x3 x4 x5 x6 x7 x8 : S10000x64.Idx → EReal)
      = lin (rd2 (val_main_v59 (F := Ideal) x0 x1 x2 x3 x4 x5 x6 : S10000x64.Idx → EReal)) (rd2 (x7 : S64x64.Idx → EReal)) (rd1 (x8 : S64.Idx → EReal)) := by
  funext n o
  show val_main_v63 (F := Ideal) x0 x1 x2 x3 x4 x5 x6 x7 x8 (ix2 n o) = (∑ k, val_main_v59 (F := Ideal) x0 x1 x2 x3 x4 x5 x6 (ix2 n k) * x7 (ix2 k o)) + x8 (ix1 o)
  rw [val_main_v63_apply, val_main_v60_apply, val_main_v62_apply, val_main_v61_apply, Ideal.addf_def]
  exact congrArg₂ (· + ·)
    (Finset.sum_congr rfl fun k _ => congrArg₂ (· * ·) (congrArg (val_main_v59 (F := Ideal) x0 x1 x2 x3 x4 x5 x6) (by idx2)) (congrArg x7 (by idx2)))
    (congrArg x8 (by idx1))

end Stages

variable (m : (ℓ : Loc nD τ sig) → Buf (Elt Ideal) ℓ)

theorem ref_value (c : Dev nD) :
    rd2 (Cert.ReferenceIdeal.Value.res_main_v63 (F := Ideal) m c : S10000x64.Idx → EReal)
      = outWith (rd2 (m ((c.tc : Thread nD τ).loc main_arg0) : S10000x128.Idx → EReal))
          (rd2 (m ((c.tc : Thread nD τ).loc main_arg1) : S10000x5000.Idx → EReal))
          (invs (rd2 (m ((c.tc : Thread nD τ).loc main_arg1) : S10000x5000.Idx → EReal)) (rd1 (m ((c.tc : Thread nD τ).loc main_arg2) : S5000.Idx → EReal)))
          (escaleRef (rd2 (m ((c.tc : Thread nD τ).loc main_arg1) : S10000x5000.Idx → EReal)) (rd1 (m ((c.tc : Thread nD τ).loc main_arg2) : S5000.Idx → EReal)))
          (rd2 (m ((c.tc : Thread nD τ).loc main_arg3) : S128x64.Idx → EReal)) (rd1 (m ((c.tc : Thread nD τ).loc main_arg4) : S64.Idx → EReal))
          (rd2 (m ((c.tc : Thread nD τ).loc main_arg5) : S64x64.Idx → EReal)) (rd1 (m ((c.tc : Thread nD τ).loc main_arg6) : S64.Idx → EReal))
          (rd2 (m ((c.tc : Thread nD τ).loc main_arg7) : S64x64.Idx → EReal)) (rd1 (m ((c.tc : Thread nD τ).loc main_arg8) : S64.Idx → EReal)) := by
  rw [val_main_v63_eq, lin_v63, conv_v59, v41_eq, v51_eq, lin_v33, conv_v29, invs_v11, escale_v21, lin_v3]
  rfl

end Cert.ReferenceIdeal.RefValue

end
-- ==== Proof.PreDecode.lean ====
import proofs.«106240_g40587440947828_cont_8to1_b_222_22_alg».proof.Pre_finite_inputs
import proofs.«106240_g40587440947828_cont_8to1_b_222_22_alg».proof.Proof.Gen.Pre_finite_inputs
import proofs.«106240_g40587440947828_cont_8to1_b_222_22_alg».proof.Proof.Spec
import proofs.«106240_g40587440947828_cont_8to1_b_222_22_alg».proof.Proof.Readings
import Idealize.ShloMosaic.Lib.ValueIdx
import Idealize.ShloMosaic.Lib.ReduceAll
import Idealize.ShloMosaic.Lib.StableHlo.Predicate
import Idealize.ShloMosaic.PureOps.Ideal.Laws

noncomputable section

namespace Cert.Pre_finite_inputs.Decode

open Idealize.ShloMosaic Idealize.ShloMosaic.ValueIdx Cert.Pre_finite_inputs Cert.Spec

theorem colsum_ne_zero [Cert.Pre_finite_inputs.Facts]
    (a0 : FVec Ideal S10000x128 .f32) (a1 : FVec Ideal S10000x5000 .f32) (a2 : FVec Ideal S5000 .f32) (a3 : FVec Ideal S128x64 .f32)
    (a4 : FVec Ideal S64 .f32) (a5 : FVec Ideal S64x64 .f32) (a6 : FVec Ideal S64 .f32) (a7 : FVec Ideal S64x64 .f32) (a8 : FVec Ideal S64 .f32)
    (h : Cert.Pre_finite_inputs.fn (F := Ideal) a0 a1 a2 a3 a4 a5 a6 a7 a8 = (fun _ => 1#1)) :
    ∀ j : Fin 5000, colSum (rd2 (a1 : S10000x5000.Idx → EReal)) j + eps ≠ 0 := by
  intro j

  have h0 := congrFun h ValueIdx.ix0
  dsimp only [fn, fn_part1, fn_part2, fn_part3] at h0

  haveI : Subsingleton S_.Idx := ⟨fun a b => funext fun d => d.elim0⟩
  have hall := Host.reduce_andi_all _ _ _ _ ix0 (IntOp.andi_eq_one.1 h0).2 (ix1 j)

  have hR : S10000x5000.Reduces [0] S5000 := by decide
  have hc : Ideal.cmp .une (Ideal.hostReduceAdd Facts.reducesTo_S10000x5000_S5000_d0 a1 (Ideal.ofBits .f32 0x00000000#32) (ix1 j)
      + Ideal.ofBits .f32 0x2B8CBCCC#32) (Ideal.ofBits .f32 0x00000000#32) = 1#1 := hall
  rw [Ideal.hostReduceAdd_single _ hR, Ideal.ofBits_zero_f32, zero_add] at hc

  have hl : ∀ k : Fin (S10000x5000.size 0), hR.lift (ix1 j) k = ix2 k j := fun k => by
    funext c
    match c with
    | ⟨0, _⟩ => rfl
    | ⟨1, _⟩ => rfl
  simp only [hl] at hc

  have hd : decide ((∑ k : Fin 10000, a1 (ix2 k j)) + Ideal.ofBits .f32 0x2B8CBCCC#32 ≠ 0) = true :=
    (StableHlo.Predicate.ofBool_eq_one_iff _).1 hc
  exact of_decide_eq_true hd

end Cert.Pre_finite_inputs.Decode

end
-- ==== Proof.lean ====
import proofs.«106240_g40587440947828_cont_8to1_b_222_22_alg».proof.Defs
import proofs.«106240_g40587440947828_cont_8to1_b_222_22_alg».proof.Proof.Gen.Kernel
import proofs.«106240_g40587440947828_cont_8to1_b_222_22_alg».proof.Proof.Gen.KernelIdeal
import proofs.«106240_g40587440947828_cont_8to1_b_222_22_alg».proof.Proof.Gen.ReferenceIdeal
import proofs.«106240_g40587440947828_cont_8to1_b_222_22_alg».proof.Proof.Gen.ReferenceIdeal.Run
import proofs.«106240_g40587440947828_cont_8to1_b_222_22_alg».proof.Proof.Gen.Pre_finite_inputs
import proofs.«106240_g40587440947828_cont_8to1_b_222_22_alg».proof.Proof.KB.Run
import proofs.«106240_g40587440947828_cont_8to1_b_222_22_alg».proof.Proof.KI.Run
import proofs.«106240_g40587440947828_cont_8to1_b_222_22_alg».proof.Proof.KI.Compose
import proofs.«106240_g40587440947828_cont_8to1_b_222_22_alg».proof.Proof.RefVal
import proofs.«106240_g40587440947828_cont_8to1_b_222_22_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

-- the reference's reciprocal form of the edge scaling is the kernel's quotient form where no column sum of H plus ε vanishes
theorem algebraic : Cert.algebraic_KernelIdeal_ReferenceIdeal := by
  intro m ρ m' ρ' hpre hagree
  refine ⟨fun c => Cert.KernelIdeal.Hand.W4 m ρ c (Proc.devRef .tc Cert.KernelIdeal.main_v9),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  refine Cert.Spec.ext_rd2 (a := 10000) (b := 64) ?_
  rw [Cert.ReferenceIdeal.RefValue.ref_value, Cert.KernelIdeal.Val.kernel_value, h0, h1, h2, h3, h4, h5, h6, h7, h8]
  unfold Cert.Spec.out
  rw [Cert.Spec.escaleRef_eq _ _ (Cert.Pre_finite_inputs.Decode.colsum_ne_zero _ _ _ _ _ _ _ _ _ (hpre c))]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
